-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v33_0)) (v2 : (c : Dev Cert.KernelIdeal.nD) → Buf (Elt Ideal) ((c.tc : Thread Cert.KernelIdeal.nD Cert.KernelIdeal.τ).loc Cert.KernelIdeal.main_v48_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v33_0) = v1 c
          ∧ r.2.mem ((c.tc : Thread Cert.KernelIdeal.nD Cert.KernelIdeal.τ).loc Cert.KernelIdeal.main_v48_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000 : Shape := ⟨1, ![400000]⟩
abbrev S400000x128 : Shape := ⟨2, ![400000, 128]⟩
abbrev S200000 : Shape := ⟨1, ![200000]⟩
abbrev S200000x128 : Shape := ⟨2, ![200000, 128]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S200000x128 : S_.BroadcastsInDim S200000x128 (![] : Fin 0 → Fin S200000x128.rank)
  reducesTo_S200000x128_S_d0_1 : S200000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg22 : FVec F S128 .f32) (main_arg23 : FVec F S128 .f32) (main_arg24 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg22
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg24
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg18 : FVec F S128 .f32) (main_arg19 : FVec F S384x128 .f32) (main_arg20 : FVec F S128 .f32) (main_arg21 : FVec F S128x128 .f32) (main_arg22 : FVec F S128 .f32) (main_arg23 : FVec F S128 .f32) (main_arg24 : FVec F S128 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S384x128 .f32 := Host.absf main_arg19
  let main_cst_28 : FVec F S_ .f32 := constant S_ .f32 0x7F800000#32
  let main_v75 : FVec F S384x128 .f32 := broadcastInDim S384x128 ![] bcast_S_S384x128 main_cst_28
  let main_v76 : IVec S384x128 1 := cmpf .olt main_v74 main_v75
  let main_c_29 : IVec S_ 1 := constantI S_ 1 1#1
  let main_v77 : IVec S_ 1 := (fun x v => Host.reduce IntOp.andi x v reducesTo_S384x128_S_d0_1 h_S_) main_v76 main_c_29
  let main_v78 : IVec S_ 1 := andi main_v73 main_v77
  let main_v79 : FVec F S128 .f32 := Host.absf main_arg20
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg21
  let main_cst_32 : FVec F S_ .f32 := constant S_ .f32 0x7F800000#32
  fn_part5 (F := F) main_arg22 main_arg23 main_arg24 main_v83 main_v84 main_cst_32

def fn_part3 {F : FTy → Type} [FloatOps F] (main_arg15 : FVec F S128x128 .f32) (main_arg16 : FVec F S128 .f32) (main_arg17 : FVec F S128 .f32) (main_arg18 : FVec F S128 .f32) (main_arg19 : FVec F S384x128 .f32) (main_arg20 : FVec F S128 .f32) (main_arg21 : FVec F S128x128 .f32) (main_arg22 : FVec F S128 .f32) (main_arg23 : FVec F S128 .f32) (main_arg24 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_arg22 main_arg23 main_arg24 main_v63 main_v67

def fn_part2 {F : FTy → Type} [FloatOps F] (main_arg11 : FVec F S128 .f32) (main_arg12 : FVec F S128 .f32) (main_arg13 : FVec F S384x128 .f32) (main_arg14 : FVec F S128 .f32) (main_arg15 : FVec F S128x128 .f32) (main_arg16 : FVec F S128 .f32) (main_arg17 : FVec F S128 .f32) (main_arg18 : FVec F S128 .f32) (main_arg19 : FVec F S384x128 .f32) (main_arg20 : FVec F S128 .f32) (main_arg21 : FVec F S128x128 .f32) (main_arg22 : FVec F S128 .f32) (main_arg23 : FVec F S128 .f32) (main_arg24 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg13
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_arg20 main_arg21 main_arg22 main_arg23 main_arg24 main_v48 main_v49 main_v50

def fn_part1 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S384x128 .f32) (main_arg14 : FVec F S128 .f32) (main_arg15 : FVec F S128x128 .f32) (main_arg16 : FVec F S128 .f32) (main_arg17 : FVec F S128 .f32) (main_arg18 : FVec F S128 .f32) (main_arg19 : FVec F S384x128 .f32) (main_arg20 : FVec F S128 .f32) (main_arg21 : FVec F S128x128 .f32) (main_arg22 : FVec F S128 .f32) (main_arg23 : FVec F S128 .f32) (main_arg24 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x128 .f32) (main_arg1 : IVec S400000 32) (main_arg2 : IVec S400000 32) (main_arg3 : FVec F S400000x128 .f32) (main_arg4 : IVec S200000 32) (main_arg5 : IVec S200000 32) (main_arg6 : FVec F S200000x128 .f32) (main_arg7 : FVec F S384x128 .f32) (main_arg8 : FVec F S128 .f32) (main_arg9 : FVec F S128x128 .f32) (main_arg10 : FVec F S128 .f32) (main_arg11 : FVec F S128 .f32) (main_arg12 : FVec F S128 .f32) (main_arg13 : FVec F S384x128 .f32) (main_arg14 : FVec F S128 .f32) (main_arg15 : FVec F S128x128 .f32) (main_arg16 : FVec F S128 .f32) (main_arg17 : FVec F S128 .f32) (main_arg18 : FVec F S128 .f32) (main_arg19 : FVec F S384x128 .f32) (main_arg20 : FVec F S128 .f32) (main_arg21 : FVec F S128x128 .f32) (main_arg22 : FVec F S128 .f32) (main_arg23 : FVec F S128 .f32) (main_arg24 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg3
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S200000x128 .f32 := Host.absf main_arg6
  let main_cst_2 : FVec F S_ .f32 := constant S_ .f32 0x7F800000#32
  let main_v10 : FVec F S200000x128 .f32 := broadcastInDim S200000x128 ![] bcast_S_S200000x128 main_cst_2
  let main_v11 : IVec S200000x128 1 := cmpf .olt main_v9 main_v10
  let main_c_3 : IVec S_ 1 := constantI S_ 1 1#1
  let main_v12 : IVec S_ 1 := (fun x v => Host.reduce IntOp.andi x v reducesTo_S200000x128_S_d0_1 h_S_) main_v11 main_c_3
  let main_v13 : IVec S_ 1 := andi main_v8 main_v12
  let main_v14 : FVec F S384x128 .f32 := Host.absf main_arg7
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x128 : Shape := ⟨2, ![100000, 128]⟩
abbrev S400000 : Shape := ⟨1, ![400000]⟩
abbrev S400000x128 : Shape := ⟨2, ![400000, 128]⟩
abbrev S200000 : Shape := ⟨1, ![200000]⟩
abbrev S200000x128 : Shape := ⟨2, ![200000, 128]⟩
abbrev S384x128 : Shape := ⟨2, ![384, 128]⟩
abbrev S128 : Shape := ⟨1, ![128]⟩
abbrev S128x128 : Shape := ⟨2, ![128, 128]⟩
abbrev S1x128 : Shape := ⟨2, ![1, 128]⟩
abbrev S_ : Shape := ⟨0, ![]⟩
abbrev S400000x1 : Shape := ⟨2, ![400000, 1]⟩
abbrev S4000x128 : Shape := ⟨2, ![4000, 128]⟩
abbrev S4000 : Shape := ⟨1, ![4000]⟩
abbrev S4000x1 : Shape := ⟨2, ![4000, 1]⟩
abbrev S200000x1 : Shape := ⟨2, ![200000, 1]⟩

abbrev nBuf : Space → Nat
  | .hbm => 93
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S400000, .i32⟩
  | .hbm, ⟨2, _⟩ => ⟨S400000, .i32⟩
  | .hbm, ⟨3, _⟩ => ⟨S400000x128, .f32⟩
  | .hbm, ⟨4, _⟩ => ⟨S200000, .i32⟩
  | .hbm, ⟨5, _⟩ => ⟨S200000, .i32⟩
  | .hbm, ⟨6, _⟩ => ⟨S200000x128, .f32⟩
  | .hbm, ⟨7, _⟩ => ⟨S384x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S384x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S384x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S384x128, .bf16⟩
  | .hbm, ⟨26, _⟩ => ⟨S1x128, .f32⟩
  | .hbm, ⟨27, _⟩ => ⟨S128x128, .bf16⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S384x128, .bf16⟩
  | .hbm, ⟨32, _⟩ => ⟨S1x128, .f32⟩
  | .hbm, ⟨33, _⟩ => ⟨S128x128, .bf16⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S384x128, .bf16⟩
  | .hbm, ⟨38, _⟩ => ⟨S1x128, .f32⟩
  | .hbm, ⟨39, _⟩ => ⟨S128x128, .bf16⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S100000x128, .bf16⟩
  | .hbm, ⟨44, _⟩ => ⟨S_, .i32⟩
  | .hbm, ⟨45, _⟩ => ⟨S400000, .i32⟩
  | .hbm, ⟨46, _⟩ => ⟨S400000, .i1⟩
  | .hbm, ⟨47, _⟩ => ⟨S_, .i32⟩
  | .hbm, ⟨48, _⟩ => ⟨S400000, .i32⟩
  | .hbm, ⟨49, _⟩ => ⟨S400000, .i32⟩
  | .hbm, ⟨50, _⟩ => ⟨S400000, .i32⟩
  | .hbm, ⟨51, _⟩ => ⟨S400000x1, .i32⟩
  | .hbm, ⟨52, _⟩ => ⟨S400000x128, .bf16⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S400000x128, .bf16⟩
  | .hbm, ⟨62, _⟩ => ⟨S400000x128, .f32⟩
  | .hbm, ⟨63, _⟩ => ⟨S400000x128, .f32⟩
  | .hbm, ⟨64, _⟩ => ⟨S_, .i32⟩
  | .hbm, ⟨65, _⟩ => ⟨S200000, .i32⟩
  | .hbm, ⟨66, _⟩ => ⟨S200000, .i1⟩
  | .hbm, ⟨67, _⟩ => ⟨S_, .i32⟩
  | .hbm, ⟨68, _⟩ => ⟨S200000, .i32⟩
  | .hbm, ⟨69, _⟩ => ⟨S200000, .i32⟩
  | .hbm, ⟨70, _⟩ => ⟨S200000, .i32⟩
  | .hbm, ⟨71, _⟩ => ⟨S200000x1, .i32⟩
  | .hbm, ⟨72, _⟩ => ⟨S200000x128, .bf16⟩
  | .hbm, ⟨73, _⟩ => ⟨S_, .i32⟩
  | .hbm, ⟨74, _⟩ => ⟨S200000, .i32⟩
  | .hbm, ⟨75, _⟩ => ⟨S200000, .i1⟩
  | .hbm, ⟨76, _⟩ => ⟨S_, .i32⟩
  | .hbm, ⟨77, _⟩ => ⟨S200000, .i32⟩
  | .hbm, ⟨78, _⟩ => ⟨S200000, .i32⟩
  | .hbm, ⟨79, _⟩ => ⟨S200000, .i32⟩
  | .hbm, ⟨80, _⟩ => ⟨S200000x1, .i32⟩
  | .hbm, ⟨81, _⟩ => ⟨S200000x128, .bf16⟩
  | .hbm, ⟨82, _⟩ => ⟨S200000x128, .f32⟩
  | .hbm, ⟨83, _⟩ => ⟨S200000x128, .f32⟩
  | .hbm, ⟨84, _⟩ => ⟨S_, .f32⟩
  | .hbm, ⟨85, _⟩ => ⟨S100000x128, .f32⟩
  | .hbm, ⟨86, _⟩ => ⟨S400000x1, .i32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S200000x1, .i32⟩
  | .hbm, ⟨91, _⟩ => ⟨S100000x128, .f32⟩
  | .hbm, ⟨92, _⟩ => ⟨S100000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .f32⟩
  | .local _ .vmem, ⟨5, _⟩ => ⟨S4000x128, .f32⟩
  | .local _ .vmem, ⟨6, _⟩ => ⟨S384x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .bf16⟩
  | .local _ .vmem, ⟨17, _⟩ => ⟨S4000x128, .bf16⟩
  | .local _ .vmem, ⟨18, _⟩ => ⟨S4000x128, .bf16⟩
  | .local _ .vmem, ⟨19, _⟩ => ⟨S4000x128, .bf16⟩
  | .local _ .vmem, ⟨20, _⟩ => ⟨S4000x128, .f32⟩
  | .local _ .vmem, ⟨21, _⟩ => ⟨S4000x128, .f32⟩
  | .local _ .vmem, ⟨22, _⟩ => ⟨S384x128, .bf16⟩
  | .local _ .vmem, ⟨23, _⟩ => ⟨S1x128, .f32⟩
  | .local _ .vmem, ⟨24, _⟩ => ⟨S128x128, .bf16⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S384x128, .bf16⟩
  | .local _ .vmem, ⟨39, _⟩ => ⟨S1x128, .f32⟩
  | .local _ .vmem, ⟨40, _⟩ => ⟨S128x128, .bf16⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S4000x128, .f32⟩
  | .local _ .vmem, ⟨45, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c : Ref sig .tc := ⟨.hbm, 44, rfl⟩
abbrev main_v19 : Ref sig .tc := ⟨.hbm, 45, rfl⟩
abbrev main_v20 : Ref sig .tc := ⟨.hbm, 46, rfl⟩
abbrev main_c_0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_1 : Ref sig .tc := ⟨.hbm, 53, rfl⟩
abbrev main_v26 : Ref sig .tc := ⟨.hbm, 54, rfl⟩
abbrev main_v27 : Ref sig .tc := ⟨.hbm, 55, rfl⟩
abbrev main_c_2 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33_0 : Ref sig .tc := ⟨.hbm, 62, rfl⟩
abbrev main_v33_1 : Ref sig .tc := ⟨.hbm, 63, rfl⟩
abbrev main_c_3 : Ref sig .tc := ⟨.hbm, 64, rfl⟩
abbrev main_v34 : Ref sig .tc := ⟨.hbm, 65, rfl⟩
abbrev main_v35 : Ref sig .tc := ⟨.hbm, 66, rfl⟩
abbrev main_c_4 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_5 : Ref sig .tc := ⟨.hbm, 73, rfl⟩
abbrev main_v41 : Ref sig .tc := ⟨.hbm, 74, rfl⟩
abbrev main_v42 : Ref sig .tc := ⟨.hbm, 75, rfl⟩
abbrev main_c_6 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48_0 : Ref sig .tc := ⟨.hbm, 82, rfl⟩
abbrev main_v48_1 : Ref sig .tc := ⟨.hbm, 83, rfl⟩
abbrev main_cst : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_7 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg9_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc1_sem10_0 : DmaSem sig := 30
abbrev cc1_sem10_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem9_1 : DmaSem sig := 45

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S384x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bitsLt_bf16_f32 : FTy.bits .bf16 < FTy.bits .f32
  shapeCasts_S128_S1x128 : S128.ShapeCasts S1x128
  bcast_S_S400000 : S_.BroadcastsInDim S400000 (![] : Fin 0 → Fin S400000.rank)
  bcast_S400000_S400000x1_0 : S400000.BroadcastsInDim S400000x1 (![0] : Fin 1 → Fin S400000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S384x128_S128x128_0_0 : ∀ a, (![0, 0] : Fin 2 → Nat) a + S128x128.size a ≤ S384x128.size a
  h_S128x128 : 0 < S128x128.numel
  shapeCasts_S128x128_S128x128 : S128x128.ShapeCasts S128x128
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  reduces_S4000x128_S4000 : S4000x128.Reduces [1] S4000
  shapeCasts_S4000_S4000x1 : S4000.ShapeCasts S4000x1
  broadcasts_S4000x1_S4000x128 : S4000x1.Broadcasts S4000x128
  bcast_S_S200000 : S_.BroadcastsInDim S200000 (![] : Fin 0 → Fin S200000.rank)
  bcast_S200000_S200000x1_0 : S200000.BroadcastsInDim S200000x1 (![0] : Fin 1 → Fin S200000x1.rank)
  bcast_S_S100000x128 : S_.BroadcastsInDim S100000x128 (![] : Fin 0 → Fin S100000x128.rank)
  gather_S100000x128_S400000x1_S400000x128_1_0_n_n_0_1_1128_wf : GatherDims.WF S100000x128 S400000x1 S400000x128 [1] [0] [] [0] [] 1 ![1, 128]
  dot_S4000x128_S128x128_S4000x128_1_0_0_1_n_n_wf : DotDims.WF S4000x128 S128x128 S4000x128 [1] [0] [0] [1] [] []
  gather_S100000x128_S200000x1_S200000x128_1_0_n_n_0_1_1128_wf : GatherDims.WF S100000x128 S200000x1 S200000x128 [1] [0] [] [0] [] 1 ![1, 128]
  scatter_S100000x128_S400000x1_S400000x128_1_0_0_1_wf : ScatterDims.WF S100000x128 S400000x1 S400000x128 [1] [0] [0] 1
  scatter_S100000x128_S200000x1_S200000x128_1_0_0_1_wf : ScatterDims.WF S100000x128 S200000x1 S200000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .bf16 = 32 ∨ (Rect.block (s := S400000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .bf16 = 32 ∨ (Rect.block (s := S400000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .f32 = 32 ∨ (Rect.block (s := S400000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S400000x128.size a
  hwx0_9 : ∀ i : grid0.Coords, EltTy.bits .f32 = 32 ∨ (Rect.block (s := S400000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S400000x128.size a
  hwx0_10 : ∀ i : grid0.Coords, EltTy.bits .f32 = 32 ∨ (Rect.block (s := S400000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .bf16 = 32 ∨ (Rect.block (s := S200000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S200000x128.size a
  hwx1_1 : ∀ i : grid1.Coords, EltTy.bits .bf16 = 32 ∨ (Rect.block (s := S200000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S200000x128.size a
  hwx1_2 : ∀ i : grid1.Coords, EltTy.bits .f32 = 32 ∨ (Rect.block (s := S200000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x128.size a ≤ S384x128.size a
  hwx1_3 : ∀ i : grid1.Coords, EltTy.bits .bf16 = 32 ∨ (Rect.block (s := S384x128) S384x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S200000x128.size a
  hwx1_9 : ∀ i : grid1.Coords, EltTy.bits .f32 = 32 ∨ (Rect.block (s := S200000x128) S4000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S200000x128.size a
  hwx1_10 : ∀ i : grid1.Coords, EltTy.bits .f32 = 32 ∨ (Rect.block (s := S200000x128) S4000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x128.size a ≤ S384x128.size a
  hwx2_3 : ∀ i : grid2.Coords, EltTy.bits .bf16 = 32 ∨ (Rect.block (s := S384x128) S384x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S100000x128.size a
  hwx2_9 : ∀ i : grid2.Coords, EltTy.bits .f32 = 32 ∨ (Rect.block (s := S100000x128) S4000x128.size (cc2_transform_9 i) (hinb2_9 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf

abbrev win0_0 : Pipeline.Window sig grid0 :=
  Pipeline.Window.ofSpec (Memref.whole main_v25) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v33_1) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S384x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48_0) S4000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v48_1) S4000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S384x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v55) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S400000 : Shape := ⟨1, ![400000]⟩
abbrev S400000x128 : Shape := ⟨2, ![400000, 128]⟩
abbrev S200000 : Shape := ⟨1, ![200000]⟩
abbrev S200000x128 : Shape := ⟨2, ![200000, 128]⟩
abbrev S384x128 : Shape := ⟨2, ![384, 128]⟩
abbrev S128 : Shape := ⟨1, ![128]⟩
abbrev S128x128 : Shape := ⟨2, ![128, 128]⟩
abbrev S_ : Shape := ⟨0, ![]⟩
abbrev S400000x1 : Shape := ⟨2, ![400000, 1]⟩
abbrev S400000x384 : Shape := ⟨2, ![400000, 384]⟩
abbrev S1x128 : Shape := ⟨2, ![1, 128]⟩
abbrev S200000x1 : Shape := ⟨2, ![200000, 1]⟩
abbrev S200000x384 : Shape := ⟨2, ![200000, 384]⟩
abbrev S100000x384 : Shape := ⟨2, ![100000, 384]⟩
abbrev S100000 : Shape := ⟨1, ![100000]⟩
abbrev S100000x1 : Shape := ⟨2, ![100000, 1]⟩

abbrev nBuf : Space → Nat
  | .hbm => 195
  | .vmem => 0
  | .smem => 0
  | _ => 0

abbrev hbmTy0_0 (i : Nat) : BufTy := match i % 128 with
  | 0 => ⟨S100000x128, .f32⟩
  | 1 => ⟨S400000, .i32⟩
  | 2 => ⟨S400000, .i32⟩
  | 3 => ⟨S400000x128, .f32⟩
  | 4 => ⟨S200000, .i32⟩
  | 5 => ⟨S200000, .i32⟩
  | 6 => ⟨S200000x128, .f32⟩
  | 7 => ⟨S384x128, .f32⟩
  | 8 => ⟨S128, .f32⟩
  | 9 => ⟨S128x128, .f32⟩
  | 10 => ⟨S128, .f32⟩
  | 11 => ⟨S128, .f32⟩
  | 12 => ⟨S128, .f32⟩
  | 13 => ⟨S384x128, .f32⟩
  | 14 => ⟨S128, .f32⟩
  | 15 => ⟨S128x128, .f32⟩
  | 16 => ⟨S128, .f32⟩
  | 17 => ⟨S128, .f32⟩
  | 18 => ⟨S128, .f32⟩
  | 19 => ⟨S384x128, .f32⟩
  | 20 => ⟨S128, .f32⟩
  | 21 => ⟨S128x128, .f32⟩
  | 22 => ⟨S128, .f32⟩
  | 23 => ⟨S128, .f32⟩
  | 24 => ⟨S128, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x128, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x128, .f32⟩
  | 43 => ⟨S400000x384, .f32⟩
  | 44 => ⟨S400000x128, .f32⟩
  | 45 => ⟨S1x128, .f32⟩
  | 46 => ⟨S400000x128, .f32⟩
  | 47 => ⟨S400000x128, .f32⟩
  | 48 => ⟨S_, .f32⟩
  | 49 => ⟨S400000x128, .f32⟩
  | 50 => ⟨S400000x128, .f32⟩
  | 51 => ⟨S400000x128, .f32⟩
  | 52 => ⟨S1x128, .f32⟩
  | 53 => ⟨S400000x128, .f32⟩
  | 54 => ⟨S400000x128, .f32⟩
  | 55 => ⟨S_, .f32⟩
  | 56 => ⟨S400000, .f32⟩
  | 57 => ⟨S400000x1, .f32⟩
  | 58 => ⟨S_, .f32⟩
  | 59 => ⟨S400000x1, .f32⟩
  | 60 => ⟨S400000x1, .f32⟩
  | 61 => ⟨S400000x128, .f32⟩
  | 62 => ⟨S400000x128, .f32⟩
  | 63 => ⟨S400000x128, .f32⟩
  | 64 => ⟨S_, .f32⟩
  | 65 => ⟨S400000, .f32⟩
  | 66 => ⟨S400000x1, .f32⟩
  | 67 => ⟨S_, .f32⟩
  | 68 => ⟨S400000x1, .f32⟩
  | 69 => ⟨S400000x1, .f32⟩
  | 70 => ⟨S400000x128, .f32⟩
  | 71 => ⟨S400000x128, .f32⟩
  | 72 => ⟨S1x128, .f32⟩
  | 73 => ⟨S400000x128, .f32⟩
  | 74 => ⟨S400000x128, .f32⟩
  | 75 => ⟨S_, .f32⟩
  | 76 => ⟨S400000x1, .f32⟩
  | 77 => ⟨S400000x1, .f32⟩
  | 78 => ⟨S400000x1, .f32⟩
  | 79 => ⟨S400000x128, .f32⟩
  | 80 => ⟨S400000x128, .f32⟩
  | 81 => ⟨S1x128, .f32⟩
  | 82 => ⟨S400000x128, .f32⟩
  | 83 => ⟨S400000x128, .f32⟩
  | 84 => ⟨S_, .i32⟩
  | 85 => ⟨S200000, .i32⟩
  | 86 => ⟨S200000, .i1⟩
  | 87 => ⟨S_, .i32⟩
  | 88 => ⟨S200000, .i32⟩
  | 89 => ⟨S200000, .i32⟩
  | 90 => ⟨S200000, .i32⟩
  | 91 => ⟨S200000x1, .i32⟩
  | 92 => ⟨S200000x128, .f32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S200000x128, .f32⟩
  | 102 => ⟨S200000x384, .f32⟩
  | 103 => ⟨S200000x128, .f32⟩
  | 104 => ⟨S1x128, .f32⟩
  | 105 => ⟨S200000x128, .f32⟩
  | 106 => ⟨S200000x128, .f32⟩
  | 107 => ⟨S_, .f32⟩
  | 108 => ⟨S200000x128, .f32⟩
  | 109 => ⟨S200000x128, .f32⟩
  | 110 => ⟨S200000x128, .f32⟩
  | 111 => ⟨S1x128, .f32⟩
  | 112 => ⟨S200000x128, .f32⟩
  | 113 => ⟨S200000x128, .f32⟩
  | 114 => ⟨S_, .f32⟩
  | 115 => ⟨S200000, .f32⟩
  | 116 => ⟨S200000x1, .f32⟩
  | 117 => ⟨S_, .f32⟩
  | 118 => ⟨S200000x1, .f32⟩
  | 119 => ⟨S200000x1, .f32⟩
  | 120 => ⟨S200000x128, .f32⟩
  | 121 => ⟨S200000x128, .f32⟩
  | 122 => ⟨S200000x128, .f32⟩
  | 123 => ⟨S_, .f32⟩
  | 124 => ⟨S200000, .f32⟩
  | 125 => ⟨S200000x1, .f32⟩
  | 126 => ⟨S_, .f32⟩
  | 127 => ⟨S200000x1, .f32⟩
  | _ => ⟨S100000x128, .f32⟩

abbrev hbmTy0_1 (i : Nat) : BufTy := match i % 128 with
  | 0 => ⟨S200000x1, .f32⟩
  | 1 => ⟨S200000x128, .f32⟩
  | 2 => ⟨S200000x128, .f32⟩
  | 3 => ⟨S1x128, .f32⟩
  | 4 => ⟨S200000x128, .f32⟩
  | 5 => ⟨S200000x128, .f32⟩
  | 6 => ⟨S_, .f32⟩
  | 7 => ⟨S200000x1, .f32⟩
  | 8 => ⟨S200000x1, .f32⟩
  | 9 => ⟨S200000x1, .f32⟩
  | 10 => ⟨S200000x128, .f32⟩
  | 11 => ⟨S200000x128, .f32⟩
  | 12 => ⟨S1x128, .f32⟩
  | 13 => ⟨S200000x128, .f32⟩
  | 14 => ⟨S200000x128, .f32⟩
  | 15 => ⟨S_, .f32⟩
  | 16 => ⟨S100000x128, .f32⟩
  | 17 => ⟨S400000x1, .i32⟩
  | 18 => ⟨S100000x128, .f32⟩
  | 19 => ⟨S_, .f32⟩
  | 20 => ⟨S100000x128, .f32⟩
  | 21 => ⟨S200000x1, .i32⟩
  | 22 => ⟨S100000x128, .f32⟩
  | 23 => ⟨S100000x384, .f32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000, .f32⟩
  | 37 => ⟨S100000x1, .f32⟩
  | 38 => ⟨S_, .f32⟩
  | 39 => ⟨S100000x1, .f32⟩
  | 40 => ⟨S100000x1, .f32⟩
  | 41 => ⟨S100000x128, .f32⟩
  | 42 => ⟨S100000x128, .f32⟩
  | 43 => ⟨S100000x128, .f32⟩
  | 44 => ⟨S_, .f32⟩
  | 45 => ⟨S100000, .f32⟩
  | 46 => ⟨S100000x1, .f32⟩
  | 47 => ⟨S_, .f32⟩
  | 48 => ⟨S100000x1, .f32⟩
  | 49 => ⟨S100000x1, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x1, .f32⟩
  | 57 => ⟨S100000x1, .f32⟩
  | 58 => ⟨S100000x1, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S400000x128, .f32⟩
  | 66 => ⟨S200000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c_1 : Ref sig .tc := ⟨.hbm, 34, rfl⟩
abbrev main_v7 : Ref sig .tc := ⟨.hbm, 35, rfl⟩
abbrev main_v8 : Ref sig .tc := ⟨.hbm, 36, rfl⟩
abbrev main_c_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call0_cst : Ref sig .tc := ⟨.hbm, 48, rfl⟩
abbrev main_call0_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst : Ref sig .tc := ⟨.hbm, 55, rfl⟩
abbrev main_v24 : Ref sig .tc := ⟨.hbm, 56, rfl⟩
abbrev main_v25 : Ref sig .tc := ⟨.hbm, 57, rfl⟩
abbrev main_cst_3 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_4 : Ref sig .tc := ⟨.hbm, 64, rfl⟩
abbrev main_v31 : Ref sig .tc := ⟨.hbm, 65, rfl⟩
abbrev main_v32 : Ref sig .tc := ⟨.hbm, 66, rfl⟩
abbrev main_cst_5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_6 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_7 : Ref sig .tc := ⟨.hbm, 84, rfl⟩
abbrev main_v48 : Ref sig .tc := ⟨.hbm, 85, rfl⟩
abbrev main_v49 : Ref sig .tc := ⟨.hbm, 86, rfl⟩
abbrev main_c_8 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_9 : Ref sig .tc := ⟨.hbm, 93, rfl⟩
abbrev main_v55 : Ref sig .tc := ⟨.hbm, 94, rfl⟩
abbrev main_v56 : Ref sig .tc := ⟨.hbm, 95, rfl⟩
abbrev main_c_10 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call1_cst : Ref sig .tc := ⟨.hbm, 107, rfl⟩
abbrev main_call1_v0 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_11 : Ref sig .tc := ⟨.hbm, 114, rfl⟩
abbrev main_v72 : Ref sig .tc := ⟨.hbm, 115, rfl⟩
abbrev main_v73 : Ref sig .tc := ⟨.hbm, 116, rfl⟩
abbrev main_cst_12 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_13 : Ref sig .tc := ⟨.hbm, 123, rfl⟩
abbrev main_v79 : Ref sig .tc := ⟨.hbm, 124, rfl⟩
abbrev main_v80 : Ref sig .tc := ⟨.hbm, 125, rfl⟩
abbrev main_cst_14 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_15 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_16 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_17 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_call2_cst : Ref sig .tc := ⟨.hbm, 156, rfl⟩
abbrev main_call2_v0 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_18 : Ref sig .tc := ⟨.hbm, 163, rfl⟩
abbrev main_v112 : Ref sig .tc := ⟨.hbm, 164, rfl⟩
abbrev main_v113 : Ref sig .tc := ⟨.hbm, 165, rfl⟩
abbrev main_cst_19 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_20 : Ref sig .tc := ⟨.hbm, 172, rfl⟩
abbrev main_v119 : Ref sig .tc := ⟨.hbm, 173, rfl⟩
abbrev main_v120 : Ref sig .tc := ⟨.hbm, 174, rfl⟩
abbrev main_cst_21 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_22 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  reducesTo_S400000x128_S400000_d1 : S400000x128.ReducesTo [1] S400000
  h_S_ : 0 < S_.numel
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  reducesTo_S200000x128_S200000_d1 : S200000x128.ReducesTo [1] S200000
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bcast_S1x128_S100000x128_0_1 : S1x128.BroadcastsInDim S100000x128 (![0, 1] : Fin 2 → Fin S100000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S400000x1_S400000x128_1_0_n_n_0_1_1128_wf : GatherDims.WF S100000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x128_S400000x128_1_0_0_1_n_n_wf : DotDims.WF S400000x128 S128x128 S400000x128 [1] [0] [0] [1] [] []
  gather_S100000x128_S200000x1_S200000x128_1_0_n_n_0_1_1128_wf : GatherDims.WF S100000x128 S200000x1 S200000x128 [1] [0] [] [0] [] 1 ![1, 128]
  dot_S200000x384_S384x128_S200000x128_1_0_0_1_n_n_wf : DotDims.WF S200000x384 S384x128 S200000x128 [1] [0] [0] [1] [] []
  dot_S200000x128_S128x128_S200000x128_1_0_0_1_n_n_wf : DotDims.WF S200000x128 S128x128 S200000x128 [1] [0] [0] [1] [] []
  scatter_S100000x128_S400000x1_S400000x128_1_0_0_1_wf : ScatterDims.WF S100000x128 S400000x1 S400000x128 [1] [0] [0] 1
  scatter_S100000x128_S200000x1_S200000x128_1_0_0_1_wf : ScatterDims.WF S100000x128 S200000x1 S200000x128 [1] [0] [0] 1
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x384_S384x128_S200000x128_1_0_0_1_n_n : DotDims S200000x384 S384x128 S200000x128 where
  lhsContracting := [1]
  rhsContracting := [0]
  lhsNonContracting := [0]
  rhsNonContracting := [1]
  lhsBatch := []
  rhsBatch := []
  wf := dot_S200000x384_S384x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefOps.lean ====
import proofs.«408938_j13219909337176_3_alg».proof.Proof.Gen.ReferenceIdeal
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ nullary main_c (constantI S_ 32 0#32),
    unary main_c main_v0 (broadcastInDim S400000 ![] bcast_S_S400000),
    binary main_arg1 main_v0 main_v1 (cmpi .slt),
    nullary main_c_0 (constantI S_ 32 100000#32),
    unary main_c_0 main_v2 (broadcastInDim S400000 ![] bcast_S_S400000),
    binary main_arg1 main_v2 main_v3 addi,
    ternary main_v1 main_v3 main_arg1 main_v4 select,
    unary main_v4 main_v5 (broadcastInDim S400000x1 ![0] bcast_S400000_S400000x1_0),
    binary main_arg0 main_v5 main_v6 (fun x i => Host.gather gather_S100000x128_S400000x1_S400000x128_1_0_n_n_0_1_1128 x i),
    nullary main_c_1 (constantI S_ 32 0#32),
    unary main_c_1 main_v7 (broadcastInDim S400000 ![] bcast_S_S400000),
    binary main_arg2 main_v7 main_v8 (cmpi .slt),
    nullary main_c_2 (constantI S_ 32 100000#32),
    unary main_c_2 main_v9 (broadcastInDim S400000 ![] bcast_S_S400000),
    binary main_arg2 main_v9 main_v10 addi,
    ternary main_v8 main_v10 main_arg2 main_v11 select,
    unary main_v11 main_v12 (broadcastInDim S400000x1 ![0] bcast_S400000_S400000x1_0),
    binary main_arg0 main_v12 main_v13 (fun x i => Host.gather gather_S100000x128_S400000x1_S400000x128_1_0_n_n_0_1_1128 x i) ]

abbrev opsB : List (HloOp τ sig (Elt F)) :=
  [ nary ![main_v6, main_v13, main_arg3] main_v14 (fun u => concatenate S400000x384 1 [⟨S400000x128, u 0⟩, ⟨S400000x128, u 1⟩, ⟨S400000x128, u 2⟩] concatenates_S400000x128_S400000x128_S400000x128_S400000x384_d1),
    binary main_v14 main_arg7 main_v15 (fun l r => Host.dotGeneral dot_S400000x384_S384x128_S400000x128_1_0_0_1_n_n none l r),
    unary main_arg8 main_v16 (broadcastInDim S1x128 ![1] bcast_S128_S1x128_1),
    unary main_v16 main_v17 (broadcastInDim S400000x128 ![0, 1] bcast_S1x128_S400000x128_0_1),
    binary main_v15 main_v17 main_v18 addf,
    TRef.nullary (TRef.of (T := ⟨S_, .f32⟩) main_call0_cst) (constant S_ .f32 0x00000000#32),
    TRef.unary (TRef.of (T := ⟨S_, .f32⟩) main_call0_cst) (TRef.of (T := ⟨S400000x128, .f32⟩) main_call0_v0) (broadcastInDim S400000x128 ![] bcast_S_S400000x128),
    TRef.binary (TRef.of (T := ⟨S400000x128, .f32⟩) main_v18) (TRef.of (T := ⟨S400000x128, .f32⟩) main_call0_v0) (TRef.of (T := ⟨S400000x128, .f32⟩) main_v19) maximumf,
    binary main_v19 main_arg9 main_v20 (fun l r => Host.dotGeneral dot_S400000x128_S128x128_S400000x128_1_0_0_1_n_n none l r),
    unary main_arg10 main_v21 (broadcastInDim S1x128 ![1] bcast_S128_S1x128_1),
    unary main_v21 main_v22 (broadcastInDim S400000x128 ![0, 1] bcast_S1x128_S400000x128_0_1),
    binary main_v20 main_v22 main_v23 addf,
    nullary main_cst (constant S_ .f32 0x00000000#32),
    binary main_v23 main_cst main_v24 (fun x v => Host.reduceAdd x v reducesTo_S400000x128_S400000_d1 h_S_),
    unary main_v24 main_v25 (broadcastInDim S400000x1 ![0] bcast_S400000_S400000x1_0),
    nullary main_cst_3 (constant S_ .f32 0x43000000#32),
    unary main_cst_3 main_v26 (broadcastInDim S400000x1 ![] bcast_S_S400000x1),
    binary main_v25 main_v26 main_v27 Host.divf,
    unary main_v27 main_v28 (broadcastInDim S400000x128 ![0, 1] bcast_S400000x1_S400000x128_0_1),
    binary main_v23 main_v28 main_v29 subf,
    binary main_v29 main_v29 main_v30 mulf,
    nullary main_cst_4 (constant S_ .f32 0x00000000#32),
    binary main_v30 main_cst_4 main_v31 (fun x v => Host.reduceAdd x v reducesTo_S400000x128_S400000_d1 h_S_),
    unary main_v31 main_v32 (broadcastInDim S400000x1 ![0] bcast_S400000_S400000x1_0),
    nullary main_cst_5 (constant S_ .f32 0x43000000#32),
    unary main_cst_5 main_v33 (broadcastInDim S400000x1 ![] bcast_S_S400000x1),
    binary main_v32 main_v33 main_v34 Host.divf,
    unary main_v27 main_v35 (broadcastInDim S400000x128 ![0, 1] bcast_S400000x1_S400000x128_0_1),
    binary main_v23 main_v35 main_v36 subf,
    unary main_arg11 main_v37 (broadcastInDim S1x128 ![1] bcast_S128_S1x128_1),
    unary main_v37 main_v38 (broadcastInDim S400000x128 ![0, 1] bcast_S1x128_S400000x128_0_1),
    binary main_v38 main_v36 main_v39 mulf,
    nullary main_cst_6 (constant S_ .f32 0x3727C5AC#32),
    unary main_cst_6 main_v40 (broadcastInDim S400000x1 ![] bcast_S_S400000x1),
    binary main_v34 main_v40 main_v41 addf,
    unary main_v41 main_v42 Host.rsqrt,
    unary main_v42 main_v43 (broadcastInDim S400000x128 ![0, 1] bcast_S400000x1_S400000x128_0_1),
    binary main_v39 main_v43 main_v44 mulf,
    unary main_arg12 main_v45 (broadcastInDim S1x128 ![1] bcast_S128_S1x128_1),
    unary main_v45 main_v46 (broadcastInDim S400000x128 ![0, 1] bcast_S1x128_S400000x128_0_1),
    binary main_v44 main_v46 main_v47 addf ]

abbrev opsC1 : List (HloOp τ sig (Elt F)) :=
  [ nullary main_c_7 (constantI S_ 32 0#32),
    unary main_c_7 main_v48 (broadcastInDim S200000 ![] bcast_S_S200000),
    binary main_arg4 main_v48 main_v49 (cmpi .slt) ]

abbrev opsC2 : List (HloOp τ sig (Elt F)) :=
  [ nullary main_c_8 (constantI S_ 32 100000#32),
    unary main_c_8 main_v50 (broadcastInDim S200000 ![] bcast_S_S200000),
    binary main_arg4 main_v50 main_v51 addi,
    ternary main_v49 main_v51 main_arg4 main_v52 select,
    unary main_v52 main_v53 (broadcastInDim S200000x1 ![0] bcast_S200000_S200000x1_0),
    binary main_arg0 main_v53 main_v54 (fun x i => Host.gather gather_S100000x128_S200000x1_S200000x128_1_0_n_n_0_1_1128 x i),
    nullary main_c_9 (constantI S_ 32 0#32),
    unary main_c_9 main_v55 (broadcastInDim S200000 ![] bcast_S_S200000),
    binary main_arg5 main_v55 main_v56 (cmpi .slt),
    nullary main_c_10 (constantI S_ 32 100000#32),
    unary main_c_10 main_v57 (broadcastInDim S200000 ![] bcast_S_S200000),
    binary main_arg5 main_v57 main_v58 addi,
    ternary main_v56 main_v58 main_arg5 main_v59 select,
    unary main_v59 main_v60 (broadcastInDim S200000x1 ![0] bcast_S200000_S200000x1_0),
    binary main_arg0 main_v60 main_v61 (fun x i => Host.gather gather_S100000x128_S200000x1_S200000x128_1_0_n_n_0_1_1128 x i) ]

abbrev opsD : List (HloOp τ sig (Elt F)) :=
  [ nary ![main_v54, main_v61, main_arg6] main_v62 (fun u => concatenate S200000x384 1 [⟨S200000x128, u 0⟩, ⟨S200000x128, u 1⟩, ⟨S200000x128, u 2⟩] concatenates_S200000x128_S200000x128_S200000x128_S200000x384_d1),
    binary main_v62 main_arg13 main_v63 (fun l r => Host.dotGeneral dot_S200000x384_S384x128_S200000x128_1_0_0_1_n_n none l r),
    unary main_arg14 main_v64 (broadcastInDim S1x128 ![1] bcast_S128_S1x128_1),
    unary main_v64 main_v65 (broadcastInDim S200000x128 ![0, 1] bcast_S1x128_S200000x128_0_1),
    binary main_v63 main_v65 main_v66 addf,
    TRef.nullary (TRef.of (T := ⟨S_, .f32⟩) main_call1_cst) (constant S_ .f32 0x00000000#32),
    TRef.unary (TRef.of (T := ⟨S_, .f32⟩) main_call1_cst) (TRef.of (T := ⟨S200000x128, .f32⟩) main_call1_v0) (broadcastInDim S200000x128 ![] bcast_S_S200000x128),
    TRef.binary (TRef.of (T := ⟨S200000x128, .f32⟩) main_v66) (TRef.of (T := ⟨S200000x128, .f32⟩) main_call1_v0) (TRef.of (T := ⟨S200000x128, .f32⟩) main_v67) maximumf,
    binary main_v67 main_arg15 main_v68 (fun l r => Host.dotGeneral dot_S200000x128_S128x128_S200000x128_1_0_0_1_n_n none l r),
    unary main_arg16 main_v69 (broadcastInDim S1x128 ![1] bcast_S128_S1x128_1),
    unary main_v69 main_v70 (broadcastInDim S200000x128 ![0, 1] bcast_S1x128_S200000x128_0_1),
    binary main_v68 main_v70 main_v71 addf,
    nullary main_cst_11 (constant S_ .f32 0x00000000#32),
    binary main_v71 main_cst_11 main_v72 (fun x v => Host.reduceAdd x v reducesTo_S200000x128_S200000_d1 h_S_),
    unary main_v72 main_v73 (broadcastInDim S200000x1 ![0] bcast_S200000_S200000x1_0),
    nullary main_cst_12 (constant S_ .f32 0x43000000#32),
    unary main_cst_12 main_v74 (broadcastInDim S200000x1 ![] bcast_S_S200000x1),
    binary main_v73 main_v74 main_v75 Host.divf,
    unary main_v75 main_v76 (broadcastInDim S200000x128 ![0, 1] bcast_S200000x1_S200000x128_0_1),
    binary main_v71 main_v76 main_v77 subf,
    binary main_v77 main_v77 main_v78 mulf,
    nullary main_cst_13 (constant S_ .f32 0x00000000#32),
    binary main_v78 main_cst_13 main_v79 (fun x v => Host.reduceAdd x v reducesTo_S200000x128_S200000_d1 h_S_),
    unary main_v79 main_v80 (broadcastInDim S200000x1 ![0] bcast_S200000_S200000x1_0),
    nullary main_cst_14 (constant S_ .f32 0x43000000#32),
    unary main_cst_14 main_v81 (broadcastInDim S200000x1 ![] bcast_S_S200000x1),
    binary main_v80 main_v81 main_v82 Host.divf,
    unary main_v75 main_v83 (broadcastInDim S200000x128 ![0, 1] bcast_S200000x1_S200000x128_0_1),
    binary main_v71 main_v83 main_v84 subf,
    unary main_arg17 main_v85 (broadcastInDim S1x128 ![1] bcast_S128_S1x128_1),
    unary main_v85 main_v86 (broadcastInDim S200000x128 ![0, 1] bcast_S1x128_S200000x128_0_1),
    binary main_v86 main_v84 main_v87 mulf,
    nullary main_cst_15 (constant S_ .f32 0x3727C5AC#32),
    unary main_cst_15 main_v88 (broadcastInDim S200000x1 ![] bcast_S_S200000x1),
    binary main_v82 main_v88 main_v89 addf,
    unary main_v89 main_v90 Host.rsqrt,
    unary main_v90 main_v91 (broadcastInDim S200000x128 ![0, 1] bcast_S200000x1_S200000x128_0_1),
    binary main_v87 main_v91 main_v92 mulf,
    unary main_arg18 main_v93 (broadcastInDim S1x128 ![1] bcast_S128_S1x128_1),
    unary main_v93 main_v94 (broadcastInDim S200000x128 ![0, 1] bcast_S1x128_S200000x128_0_1),
    binary main_v92 main_v94 main_v95 addf ]

abbrev opsE1 : List (HloOp τ sig (Elt F)) :=
  [ nullary main_cst_16 (constant S_ .f32 0x00000000#32),
    unary main_cst_16 main_v96 (broadcastInDim S100000x128 ![] bcast_S_S100000x128),
    unary main_arg2 main_v97 (broadcastInDim S400000x1 ![0] bcast_S400000_S400000x1_0),
    ternary main_v96 main_v97 main_v47 main_v98 (fun x i u => Host.scatterAdd scatter_S100000x128_S400000x1_S400000x128_1_0_0_1 x i u),
    nullary main_cst_17 (constant S_ .f32 0x00000000#32),
    unary main_cst_17 main_v99 (broadcastInDim S100000x128 ![] bcast_S_S100000x128) ]

abbrev opsE2 : List (HloOp τ sig (Elt F)) :=
  [ unary main_arg5 main_v100 (broadcastInDim S200000x1 ![0] bcast_S200000_S200000x1_0),
    ternary main_v99 main_v100 main_v95 main_v101 (fun x i u => Host.scatterAdd scatter_S100000x128_S200000x1_S200000x128_1_0_0_1 x i u) ]

abbrev opsF : List (HloOp τ sig (Elt F)) :=
  [ nary ![main_arg0, main_v98, main_v101] main_v102 (fun u => concatenate S100000x384 1 [⟨S100000x128, u 0⟩, ⟨S100000x128, u 1⟩, ⟨S100000x128, u 2⟩] concatenates_S100000x128_S100000x128_S100000x128_S100000x384_d1),
    binary main_v102 main_arg19 main_v103 (fun l r => Host.dotGeneral dot_S100000x384_S384x128_S100000x128_1_0_0_1_n_n none l r),
    unary main_arg20 main_v104 (broadcastInDim S1x128 ![1] bcast_S128_S1x128_1),
    unary main_v104 main_v105 (broadcastInDim S100000x128 ![0, 1] bcast_S1x128_S100000x128_0_1),
    binary main_v103 main_v105 main_v106 addf,
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v106) (TRef.of (T := ⟨S100000x128, .f32⟩) main_call2_v0) (TRef.of (T := ⟨S100000x128, .f32⟩) main_v107) maximumf,
    binary main_v107 main_arg21 main_v108 (fun l r => Host.dotGeneral dot_S100000x128_S128x128_S100000x128_1_0_0_1_n_n none l r),
    unary main_arg22 main_v109 (broadcastInDim S1x128 ![1] bcast_S128_S1x128_1),
    unary main_v109 main_v110 (broadcastInDim S100000x128 ![0, 1] bcast_S1x128_S100000x128_0_1),
    binary main_v108 main_v110 main_v111 addf,
    nullary main_cst_18 (constant S_ .f32 0x00000000#32),
    binary main_v111 main_cst_18 main_v112 (fun x v => Host.reduceAdd x v reducesTo_S100000x128_S100000_d1 h_S_),
    unary main_v112 main_v113 (broadcastInDim S100000x1 ![0] bcast_S100000_S100000x1_0),
    nullary main_cst_19 (constant S_ .f32 0x43000000#32),
    unary main_cst_19 main_v114 (broadcastInDim S100000x1 ![] bcast_S_S100000x1),
    binary main_v113 main_v114 main_v115 Host.divf,
    unary main_v115 main_v116 (broadcastInDim S100000x128 ![0, 1] bcast_S100000x1_S100000x128_0_1),
    binary main_v111 main_v116 main_v117 subf,
    binary main_v117 main_v117 main_v118 mulf,
    nullary main_cst_20 (constant S_ .f32 0x00000000#32),
    binary main_v118 main_cst_20 main_v119 (fun x v => Host.reduceAdd x v reducesTo_S100000x128_S100000_d1 h_S_),
    unary main_v119 main_v120 (broadcastInDim S100000x1 ![0] bcast_S100000_S100000x1_0),
    nullary main_cst_21 (constant S_ .f32 0x43000000#32),
    unary main_cst_21 main_v121 (broadcastInDim S100000x1 ![] bcast_S_S100000x1),
    binary main_v120 main_v121 main_v122 Host.divf,
    unary main_v115 main_v123 (broadcastInDim S100000x128 ![0, 1] bcast_S100000x1_S100000x128_0_1),
    binary main_v111 main_v123 main_v124 subf,
    unary main_arg23 main_v125 (broadcastInDim S1x128 ![1] bcast_S128_S1x128_1),
    unary main_v125 main_v126 (broadcastInDim S100000x128 ![0, 1] bcast_S1x128_S100000x128_0_1),
    binary main_v126 main_v124 main_v127 mulf,
    nullary main_cst_22 (constant S_ .f32 0x3727C5AC#32),
    unary main_cst_22 main_v128 (broadcastInDim S100000x1 ![] bcast_S_S100000x1),
    binary main_v122 main_v128 main_v129 addf,
    unary main_v129 main_v130 Host.rsqrt,
    unary main_v130 main_v131 (broadcastInDim S100000x128 ![0, 1] bcast_S100000x1_S100000x128_0_1),
    binary main_v127 main_v131 main_v132 mulf,
    unary main_arg24 main_v133 (broadcastInDim S1x128 ![1] bcast_S128_S1x128_1),
    unary main_v133 main_v134 (broadcastInDim S100000x128 ![0, 1] bcast_S1x128_S100000x128_0_1),
    binary main_v132 main_v134 main_v135 addf,
    binary main_v135 main_arg0 main_v136 addf,
    binary main_v47 main_arg3 main_v137 addf,
    binary main_v95 main_arg6 main_v138 addf ]

abbrev ops : List (HloOp τ sig (Elt F)) :=
  opsA ++ (opsB ++ (opsC1 ++ (opsC2 ++ (opsD ++ (opsE1 ++ (opsE2 ++ (opsF)))))))

set_option maxRecDepth 8192 in
set_option maxHeartbeats 4000000 in
theorem main_part0_eq (c : Dev nD) : main_part0 (F := F) c = seq (opsA ++ (opsB ++ (opsC1))) := rfl
set_option maxRecDepth 8192 in
set_option maxHeartbeats 4000000 in
theorem main_part1_eq (c : Dev nD) : main_part1 (F := F) c = seq (opsC2 ++ (opsD ++ (opsE1))) := rfl
set_option maxRecDepth 8192 in
set_option maxHeartbeats 4000000 in
theorem main_part2_eq (c : Dev nD) : main_part2 (F := F) c = seq (opsE2 ++ (opsF)) := rfl
set_option maxRecDepth 8192 in
theorem main_eq (c : Dev nD) : main (F := F) c = seq ops := by
  have h : main (F := F) c = (main_part0 c >>= fun _ => main_part1 c >>= fun _ => main_part2 c) := rfl
  rw [h, main_part0_eq, main_part1_eq, main_part2_eq]
  simp only [ops, seq_append, bind_assoc]
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig := by
  simp only [ops, opsA, opsB, opsC1, opsC2, opsD, opsE1, opsE2, opsF, List.cons_append, List.nil_append, List.Forall,
    nullary_bufs_sub, unary_bufs_sub, binary_bufs_sub, ternary_bufs_sub, nary_bufs_sub, and_self]

set_option maxRecDepth 8192 in
theorem ops_fresh : ∀ op ∈ (ops : List (HloOp τ sig (Elt F))), op.fresh = ∅ := by
  intro op h
  simp only [ops, List.mem_append] at h
  rcases h with h | h | h | h | h | h | h | h <;>
    ((repeat (cases h with | head => rfl | tail _ h => ?_)); exact nomatch h)

abbrev opsA_W : List (Ref sig .tc) := [main_c, main_v0, main_v1, main_c_0, main_v2, main_v3, main_v4, main_v5, main_v6, main_c_1, main_v7, main_v8, main_c_2, main_v9, main_v10, main_v11, main_v12, main_v13]
abbrev opsB_W : List (Ref sig .tc) := [main_v14, main_v15, main_v16, main_v17, main_v18, main_call0_cst, main_call0_v0, main_v19, main_v20, main_v21, main_v22, main_v23, main_cst, main_v24, main_v25, main_cst_3, main_v26, main_v27, main_v28, main_v29, main_v30, main_cst_4, main_v31, main_v32, main_cst_5, main_v33, main_v34, main_v35, main_v36, main_v37, main_v38, main_v39, main_cst_6, main_v40, main_v41, main_v42, main_v43, main_v44, main_v45, main_v46, main_v47]
abbrev opsC1_W : List (Ref sig .tc) := [main_c_7, main_v48, main_v49]
abbrev opsC2_W : List (Ref sig .tc) := [main_c_8, main_v50, main_v51, main_v52, main_v53, main_v54, main_c_9, main_v55, main_v56, main_c_10, main_v57, main_v58, main_v59, main_v60, main_v61]
abbrev opsD_W : List (Ref sig .tc) := [main_v62, main_v63, main_v64, main_v65, main_v66, main_call1_cst, main_call1_v0, main_v67, main_v68, main_v69, main_v70, main_v71, main_cst_11, main_v72, main_v73, main_cst_12, main_v74, main_v75, main_v76, main_v77, main_v78, main_cst_13, main_v79, main_v80, main_cst_14, main_v81, main_v82, main_v83, main_v84, main_v85, main_v86, main_v87, main_cst_15, main_v88, main_v89, main_v90, main_v91, main_v92, main_v93, main_v94, main_v95]
abbrev opsE1_W : List (Ref sig .tc) := [main_cst_16, main_v96, main_v97, main_v98, main_cst_17, main_v99]
abbrev opsE2_W : List (Ref sig .tc) := [main_v100, main_v101]
abbrev opsF_W : List (Ref sig .tc) := [main_v102, main_v103, main_v104, main_v105, main_v106, main_call2_cst, main_call2_v0, main_v107, main_v108, main_v109, main_v110, main_v111, main_cst_18, main_v112, main_v113, main_cst_19, main_v114, main_v115, main_v116, main_v117, main_v118, main_cst_20, main_v119, main_v120, main_cst_21, main_v121, main_v122, main_v123, main_v124, main_v125, main_v126, main_v127, main_cst_22, main_v128, main_v129, main_v130, main_v131, main_v132, main_v133, main_v134, main_v135, main_v136, main_v137, main_v138]

/-- Every operation of the line writes only references of the list. -/
abbrev WritesIn (l : List (HloOp τ sig (Elt F))) (W : List (Ref sig .tc)) : Prop :=
  l.Forall fun op => op.writes ⊆ (W.map (Proc.devRef (τ := τ) .tc)).toFinset

set_option maxRecDepth 8192 in
theorem writes_in : WritesIn (F := F) opsA opsA_W ∧ WritesIn (F := F) opsB opsB_W ∧ WritesIn (F := F) opsC1 opsC1_W ∧ WritesIn (F := F) opsC2 opsC2_W ∧ WritesIn (F := F) opsD opsD_W ∧ WritesIn (F := F) opsE1 opsE1_W ∧ WritesIn (F := F) opsE2 opsE2_W ∧ WritesIn (F := F) opsF opsF_W := by
  simp only [WritesIn, List.Forall, nullary_writes, unary_writes, binary_writes, ternary_writes, nary_writes,
    Finset.singleton_subset_iff, List.mem_toFinset]
  repeat' apply And.intro
  all_goals exact List.mem_map_of_mem (by decide)

/-- A reference outside the list a line writes in keeps what it held. -/
theorem keep {l : List (HloOp τ sig (Elt F))} {W : List (Ref sig .tc)} (hW : WritesIn l W) (V : Valuation τ sig (Elt F))
    {r : Ref sig .tc} (hr : r ∉ W) {x} (hx : V (Proc.devRef .tc r) = x) : after l V (Proc.devRef .tc r) = x :=
  (after_of_writes_sub l V hW hr).trans hx

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

end Cert.ReferenceIdeal.HandRun

end
-- ==== Proof.Spec.lean ====
import Idealize.ShloMosaic.PureOps.Ideal
import Idealize.ShloMosaic.PureOps.Ideal.Laws
import Mathlib.Algebra.BigOperators.Fin

noncomputable section

namespace Cert.Spec

open Idealize.ShloMosaic

def cat3 (a b c : Fin 128 → EReal) : Fin 384 → EReal := fun k =>
  if h : k.val < 128 then a ⟨k.val, h⟩
  else if h2 : k.val < 256 then b ⟨k.val - 128, by omega⟩
  else c ⟨k.val - 256, by omega⟩

abbrev zeroW : EReal := Ideal.ofBits .f32 0x00000000#32
abbrev n128W : EReal := Ideal.ofBits .f32 0x43000000#32
abbrev epsW : EReal := Ideal.ofBits .f32 0x3727C5AC#32

def lin1 (W1 : Fin 384 → Fin 128 → EReal) (b1 : Fin 128 → EReal) (x : Fin 384 → EReal) (j : Fin 128) : EReal :=
  (∑ k : Fin 384, x k * W1 k j) + b1 j

def hid (W1 : Fin 384 → Fin 128 → EReal) (b1 : Fin 128 → EReal) (x : Fin 384 → EReal) (j : Fin 128) : EReal :=
  max (lin1 W1 b1 x j) zeroW

def lin2 (W2 : Fin 128 → Fin 128 → EReal) (b2 : Fin 128 → EReal) (h : Fin 128 → EReal) (j : Fin 128) : EReal :=
  (∑ k : Fin 128, h k * W2 k j) + b2 j

def mean (y : Fin 128 → EReal) : EReal := Ideal.div (∑ j : Fin 128, y j) n128W

def dev (y : Fin 128 → EReal) (j : Fin 128) : EReal := y j - mean y

def norm (g beta : Fin 128 → EReal) (y : Fin 128 → EReal) (j : Fin 128) : EReal :=
  (g j * dev y j) * Ideal.rsqrt (mean (fun q => dev y q * dev y q) + epsW) + beta j

def rowLN (W1 : Fin 384 → Fin 128 → EReal) (b1 : Fin 128 → EReal) (W2 : Fin 128 → Fin 128 → EReal)
    (b2 g beta : Fin 128 → EReal) (x : Fin 384 → EReal) (j : Fin 128) : EReal :=
  norm g beta (lin2 W2 b2 (hid W1 b1 x)) j

theorem sum_cat3 (a b c : Fin 128 → EReal) (w : Fin 384 → EReal) :
    ∑ k : Fin 384, cat3 a b c k * w k
      = ((∑ k : Fin 128, a k * w ⟨k.val, by omega⟩) + ∑ k : Fin 128, b k * w ⟨128 + k.val, by omega⟩)
        + ∑ k : Fin 128, c k * w ⟨256 + k.val, by omega⟩ := by
  have e1 : ∑ k : Fin 384, cat3 a b c k * w k = ∑ k : Fin (256 + 128), cat3 a b c k * w k := rfl
  rw [e1, Fin.sum_univ_add]
  have e2 : ∑ k : Fin 256, cat3 a b c (Fin.castAdd 128 k) * w (Fin.castAdd 128 k)
      = ∑ k : Fin (128 + 128), cat3 a b c (Fin.castAdd 128 k) * w (Fin.castAdd 128 k) := rfl
  rw [e2, Fin.sum_univ_add]
  congr 1

theorem cat3_congr {a a' b b' d d' : Fin 128 → EReal} (ha : ∀ k, a k = a' k) (hb : ∀ k, b k = b' k)
    (hd : ∀ k, d k = d' k) (k : Fin 384) : cat3 a b d k = cat3 a' b' d' k := by
  obtain rfl : a = a' := funext ha
  obtain rfl : b = b' := funext hb
  obtain rfl : d = d' := funext hd
  rfl

theorem rowLN_congr {W1 W1' : Fin 384 → Fin 128 → EReal} {b1 b1' : Fin 128 → EReal} {W2 W2' : Fin 128 → Fin 128 → EReal}
    {b2 b2' g g' be be' : Fin 128 → EReal} {x x' : Fin 384 → EReal} (j : Fin 128)
    (hW1 : ∀ k q, W1 k q = W1' k q) (hb1 : ∀ q, b1 q = b1' q) (hW2 : ∀ k q, W2 k q = W2' k q)
    (hb2 : ∀ q, b2 q = b2' q) (hg : ∀ q, g q = g' q) (hbe : ∀ q, be q = be' q) (hx : ∀ k, x k = x' k) :
    rowLN W1 b1 W2 b2 g be x j = rowLN W1' b1' W2' b2' g' be' x' j := by
  obtain rfl : W1 = W1' := funext fun k => funext fun q => hW1 k q
  obtain rfl : b1 = b1' := funext hb1
  obtain rfl : W2 = W2' := funext fun k => funext fun q => hW2 k q
  obtain rfl : b2 = b2' := funext hb2
  obtain rfl : g = g' := funext hg
  obtain rfl : be = be' := funext hbe
  obtain rfl : x = x' := funext hx
  rfl

end Cert.Spec

end
-- ==== Proof.LibDense.lean ====
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

private theorem coord_val_congr {s : Shape} (j : s.Idx) (p q : ℕ) (hp : p < s.rank) (hq : q < s.rank) (h : p = q) :
    (j ⟨p, hp⟩).val = (j ⟨q, hq⟩).val := by subst h; rfl

theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.RefValue1.lean ====
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import proofs.«408938_j13219909337176_3_alg».proof.Proof.Spec
import proofs.«408938_j13219909337176_3_alg».proof.Proof.LibDense

noncomputable section

namespace Cert.RefBlock

open Idealize.ShloMosaic Idealize.ShloMosaic.ValueIdx Cert.Spec

abbrev R128 (n : ℕ) : Shape := ⟨2, ![n, 128]⟩
abbrev R384 (n : ℕ) : Shape := ⟨2, ![n, 384]⟩
abbrev R1 (n : ℕ) : Shape := ⟨2, ![n, 1]⟩
abbrev Vn (n : ℕ) : Shape := ⟨1, ![n]⟩
abbrev S0 : Shape := ⟨0, ![]⟩
abbrev M1 : Shape := ⟨2, ![384, 128]⟩
abbrev M2 : Shape := ⟨2, ![128, 128]⟩
abbrev P128 : Shape := ⟨1, ![128]⟩
abbrev P1x128 : Shape := ⟨2, ![1, 128]⟩

variable {n : ℕ}

theorem hostDivf_apply {s : Shape} (x y : FVec Ideal s .f32) (i : s.Idx) : Host.divf x y i = Ideal.div (x i) (y i) := rfl
theorem hostRsqrt_apply {s : Shape} (x : FVec Ideal s .f32) (i : s.Idx) : Host.rsqrt x i = Ideal.rsqrt (x i) := rfl

theorem scalarBcast_apply {t : Shape} (hb : S0.BroadcastsInDim t (![] : Fin 0 → Fin t.rank)) (x : FVec Ideal S0 .f32) (j : t.Idx) :
    broadcastInDim t ![] hb x j = x ix0 :=
  broadcastInDim_apply _ hb x j ix0 (fun a => a.elim0)

theorem rowBcast_apply (hb1 : P128.BroadcastsInDim P1x128 (![1] : Fin 1 → Fin P1x128.rank))
    (hb2 : P1x128.BroadcastsInDim (R128 n) (![0, 1] : Fin 2 → Fin (R128 n).rank)) (b : FVec Ideal P128 .f32) (p : Fin n) (q : Fin 128) :
    broadcastInDim (R128 n) ![0, 1] hb2 (broadcastInDim P1x128 ![1] hb1 b) (ix2 p q) = b (ix1 q) := by
  rw [broadcastInDim_apply _ hb2 _ (ix2 p q) (ix2 (0 : Fin 1) q) (fun a => match a with
        | ⟨0, _⟩ => by show (0 : ℕ) = if (1 : ℕ) = 1 then 0 else p.val; rw [if_pos rfl]
        | ⟨1, _⟩ => by show q.val = if (128 : ℕ) = 1 then 0 else q.val; rw [if_neg (by decide)]),
    broadcastInDim_apply _ hb1 b (ix2 (0 : Fin 1) q) (ix1 q) (fun a => match a with
        | ⟨0, _⟩ => by show q.val = if (128 : ℕ) = 1 then 0 else q.val; rw [if_neg (by decide)])]

theorem colBcast_apply (hbc : (Vn n).BroadcastsInDim (R1 n) (![0] : Fin 1 → Fin (R1 n).rank)) (v : FVec Ideal (Vn n) .f32) (p : Fin n) :
    broadcastInDim (R1 n) ![0] hbc v (ix2 p (0 : Fin 1)) = v (ix1 p) :=
  broadcastInDim_apply _ hbc v (ix2 p (0 : Fin 1)) (ix1 p) (fun a => match a with
    | ⟨0, _⟩ => by
      show p.val = if n = 1 then 0 else p.val
      by_cases h : n = 1
      · rw [if_pos h]; have := p.isLt; omega
      · rw [if_neg h])

theorem rowsBcast_apply (hbr : (R1 n).BroadcastsInDim (R128 n) (![0, 1] : Fin 2 → Fin (R128 n).rank)) (c : FVec Ideal (R1 n) .f32)
    (p : Fin n) (q : Fin 128) :
    broadcastInDim (R128 n) ![0, 1] hbr c (ix2 p q) = c (ix2 p (0 : Fin 1)) :=
  broadcastInDim_apply _ hbr c (ix2 p q) (ix2 p (0 : Fin 1)) (fun a => match a with
    | ⟨0, _⟩ => by
      show p.val = if n = 1 then 0 else p.val
      by_cases h : n = 1
      · rw [if_pos h]; have := p.isLt; omega
      · rw [if_neg h]
    | ⟨1, _⟩ => by show (0 : ℕ) = if (1 : ℕ) = 1 then 0 else q.val; rw [if_pos rfl])

theorem rowSum_apply (hr : (R128 n).ReducesTo [1] (Vn n)) (hr' : (R128 n).Reduces [1] (Vn n)) (h0 : 0 < S0.numel)
    (Y : FVec Ideal (R128 n) .f32) (p : Fin n) :
    Host.reduceAdd Y (constant S0 .f32 0x00000000#32) hr h0 (ix1 p) = ∑ j : Fin 128, Y (ix2 p j) := by
  simp only [Host.reduceAdd, Ideal.hostReduceAdd_def]
  rw [Ideal.hostReduceAdd_single hr hr']
  rw [show (constant S0 .f32 0x00000000#32 : FVec Ideal S0 .f32) (Shape.Idx.first h0) = 0 from Ideal.ofBits_zero_f32, zero_add]
  refine Finset.sum_congr rfl fun k _ => ?_
  exact congrArg Y (funext fun a => Fin.ext (by match a with | ⟨0, _⟩ => rfl | ⟨1, _⟩ => rfl))

theorem concat3_apply (h : Shape.Concatenates [R128 n, R128 n, R128 n] (R384 n) 1)
    (A B C : FVec Ideal (R128 n) .f32) (p : Fin n) (k : Fin 384) :
    concatenate (R384 n) 1 [⟨R128 n, A⟩, ⟨R128 n, B⟩, ⟨R128 n, C⟩] h (ix2 p k)
      = cat3 (fun q => A (ix2 p q)) (fun q => B (ix2 p q)) (fun q => C (ix2 p q)) k := by
  unfold cat3
  by_cases h1 : k.val < 128
  · rw [dif_pos h1]
    exact concatenate_apply_piece (t := R384 n) 1 [⟨R128 n, A⟩, ⟨R128 n, B⟩, ⟨R128 n, C⟩] h (ix2 p k) 0 (by show 0 < 3; omega) (R128 n) A rfl rfl 0 rfl (ix2 p ⟨k.val, h1⟩)
      (fun b => match b with
        | ⟨0, _⟩ => fun _ => rfl
        | ⟨1, _⟩ => fun hb => absurd rfl hb)
      (by show 0 + k.val = k.val; omega)
  · rw [dif_neg h1]
    by_cases h2 : k.val < 256
    · rw [dif_pos h2]
      exact concatenate_apply_piece (t := R384 n) 1 [⟨R128 n, A⟩, ⟨R128 n, B⟩, ⟨R128 n, C⟩] h (ix2 p k) 1 (by show 1 < 3; omega) (R128 n) B rfl rfl 128 rfl (ix2 p ⟨k.val - 128, by omega⟩)
        (fun b => match b with
          | ⟨0, _⟩ => fun _ => rfl
          | ⟨1, _⟩ => fun hb => absurd rfl hb)
        (by show 128 + (k.val - 128) = k.val; omega)
    · rw [dif_neg h2]
      exact concatenate_apply_piece (t := R384 n) 1 [⟨R128 n, A⟩, ⟨R128 n, B⟩, ⟨R128 n, C⟩] h (ix2 p k) 2 (by show 2 < 3; omega) (R128 n) C rfl rfl 256 rfl (ix2 p ⟨k.val - 256, by omega⟩)
        (fun b => match b with
          | ⟨0, _⟩ => fun _ => rfl
          | ⟨1, _⟩ => fun hb => absurd rfl hb)
        (by show 256 + (k.val - 256) = k.val; omega)

section mlp

variable (d1 : DotDims (R384 n) M1 (R128 n)) (d2 : DotDims (R128 n) M2 (R128 n))
  (hb1 : P128.BroadcastsInDim P1x128 (![1] : Fin 1 → Fin P1x128.rank))
  (hb2 : P1x128.BroadcastsInDim (R128 n) (![0, 1] : Fin 2 → Fin (R128 n).rank))
  (hb0 : S0.BroadcastsInDim (R128 n) (![] : Fin 0 → Fin (R128 n).rank))

def hiddenArr (X : FVec Ideal (R384 n) .f32) (W1 : FVec Ideal M1 .f32) (b1 : FVec Ideal P128 .f32) : FVec Ideal (R128 n) .f32 :=
  maximumf (addf (Host.dotGeneral d1 none X W1) (broadcastInDim (R128 n) ![0, 1] hb2 (broadcastInDim P1x128 ![1] hb1 b1)))
    (broadcastInDim (R128 n) ![] hb0 (constant S0 .f32 0x00000000#32))

def mlpArr (X : FVec Ideal (R384 n) .f32) (W1 : FVec Ideal M1 .f32) (b1 : FVec Ideal P128 .f32) (W2 : FVec Ideal M2 .f32)
    (b2 : FVec Ideal P128 .f32) : FVec Ideal (R128 n) .f32 :=
  addf (Host.dotGeneral d2 none (hiddenArr d1 hb1 hb2 hb0 X W1 b1) W2) (broadcastInDim (R128 n) ![0, 1] hb2 (broadcastInDim P1x128 ![1] hb1 b2))

variable (hlc1 : d1.lhsContracting = [1]) (hrc1 : d1.rhsContracting = [0]) (hln1 : d1.lhsNonContracting = [0])
  (hrn1 : d1.rhsNonContracting = [1]) (hlb1 : d1.lhsBatch = []) (hrb1 : d1.rhsBatch = [])
  (hlc2 : d2.lhsContracting = [1]) (hrc2 : d2.rhsContracting = [0]) (hln2 : d2.lhsNonContracting = [0])
  (hrn2 : d2.rhsNonContracting = [1]) (hlb2 : d2.lhsBatch = []) (hrb2 : d2.rhsBatch = [])

include hlc1 hrc1 hln1 hrn1 hlb1 hrb1 in
theorem hiddenArr_apply (X : FVec Ideal (R384 n) .f32) (W1 : FVec Ideal M1 .f32) (b1 : FVec Ideal P128 .f32) (p : Fin n) (j : Fin 128) :
    hiddenArr d1 hb1 hb2 hb0 X W1 b1 (ix2 p j)
      = hid (fun k q => W1 (ix2 k q)) (fun q => b1 (ix1 q)) (fun k => X (ix2 p k)) j := by
  unfold hiddenArr
  rw [maximumf_apply, addf_apply, rowBcast_apply, scalarBcast_apply]
  simp only [Host.dotGeneral]
  rw [LibDense.dotGeneral_apply d1 none .single hlc1 hrc1 hln1 hrn1 hlb1 hrb1]
  rfl

include hlc1 hrc1 hln1 hrn1 hlb1 hrb1 hlc2 hrc2 hln2 hrn2 hlb2 hrb2 in
theorem mlpArr_apply (X : FVec Ideal (R384 n) .f32) (W1 : FVec Ideal M1 .f32) (b1 : FVec Ideal P128 .f32) (W2 : FVec Ideal M2 .f32)
    (b2 : FVec Ideal P128 .f32) (p : Fin n) (q : Fin 128) :
    mlpArr d1 d2 hb1 hb2 hb0 X W1 b1 W2 b2 (ix2 p q)
      = lin2 (fun k j => W2 (ix2 k j)) (fun j => b2 (ix1 j))
          (hid (fun k j => W1 (ix2 k j)) (fun j => b1 (ix1 j)) (fun k => X (ix2 p k))) q := by
  unfold mlpArr
  rw [addf_apply, rowBcast_apply]
  simp only [Host.dotGeneral]
  rw [LibDense.dotGeneral_apply d2 none .single hlc2 hrc2 hln2 hrn2 hlb2 hrb2]
  simp only [hiddenArr_apply d1 hb1 hb2 hb0 hlc1 hrc1 hln1 hrn1 hlb1 hrb1]
  rfl

end mlp

section ln

variable (hb1 : P128.BroadcastsInDim P1x128 (![1] : Fin 1 → Fin P1x128.rank))
  (hb2 : P1x128.BroadcastsInDim (R128 n) (![0, 1] : Fin 2 → Fin (R128 n).rank))
  (hbs : S0.BroadcastsInDim (R1 n) (![] : Fin 0 → Fin (R1 n).rank))
  (hbc : (Vn n).BroadcastsInDim (R1 n) (![0] : Fin 1 → Fin (R1 n).rank))
  (hbr : (R1 n).BroadcastsInDim (R128 n) (![0, 1] : Fin 2 → Fin (R128 n).rank))
  (hr : (R128 n).ReducesTo [1] (Vn n)) (h0 : 0 < S0.numel)

def meanCol (Y : FVec Ideal (R128 n) .f32) : FVec Ideal (R1 n) .f32 :=
  Host.divf (broadcastInDim (R1 n) ![0] hbc (Host.reduceAdd Y (constant S0 .f32 0x00000000#32) hr h0))
    (broadcastInDim (R1 n) ![] hbs (constant S0 .f32 0x43000000#32))

def devArr (Y : FVec Ideal (R128 n) .f32) : FVec Ideal (R128 n) .f32 :=
  subf Y (broadcastInDim (R128 n) ![0, 1] hbr (meanCol hbs hbc hr h0 Y))

def lnArr (Y : FVec Ideal (R128 n) .f32) (g beta : FVec Ideal P128 .f32) : FVec Ideal (R128 n) .f32 :=
  addf
    (mulf (mulf (broadcastInDim (R128 n) ![0, 1] hb2 (broadcastInDim P1x128 ![1] hb1 g)) (devArr hbs hbc hbr hr h0 Y))
      (broadcastInDim (R128 n) ![0, 1] hbr
        (Host.rsqrt (addf (meanCol hbs hbc hr h0 (mulf (devArr hbs hbc hbr hr h0 Y) (devArr hbs hbc hbr hr h0 Y)))
          (broadcastInDim (R1 n) ![] hbs (constant S0 .f32 0x3727C5AC#32))))))
    (broadcastInDim (R128 n) ![0, 1] hb2 (broadcastInDim P1x128 ![1] hb1 beta))

variable (hr' : (R128 n).Reduces [1] (Vn n))

include hr' in
theorem meanCol_apply (Y : FVec Ideal (R128 n) .f32) (p : Fin n) :
    meanCol hbs hbc hr h0 Y (ix2 p (0 : Fin 1)) = mean (fun j => Y (ix2 p j)) := by
  unfold meanCol
  rw [hostDivf_apply, colBcast_apply, scalarBcast_apply, rowSum_apply hr hr' h0]
  rfl

include hr' in
theorem devArr_apply (Y : FVec Ideal (R128 n) .f32) (p : Fin n) (q : Fin 128) :
    devArr hbs hbc hbr hr h0 Y (ix2 p q) = dev (fun j => Y (ix2 p j)) q := by
  unfold devArr
  rw [subf_apply, rowsBcast_apply, meanCol_apply hbs hbc hr h0 hr']
  rfl

include hr' in
theorem lnArr_apply (Y : FVec Ideal (R128 n) .f32) (g beta : FVec Ideal P128 .f32) (p : Fin n) (q : Fin 128) :
    lnArr hb1 hb2 hbs hbc hbr hr h0 Y g beta (ix2 p q)
      = norm (fun j => g (ix1 j)) (fun j => beta (ix1 j)) (fun j => Y (ix2 p j)) q := by
  unfold lnArr
  rw [addf_apply, mulf_apply, mulf_apply, rowBcast_apply, rowBcast_apply, devArr_apply hbs hbc hbr hr h0 hr', rowsBcast_apply,
    hostRsqrt_apply, addf_apply, meanCol_apply hbs hbc hr h0 hr', scalarBcast_apply]
  simp only [mulf_apply, devArr_apply hbs hbc hbr hr h0 hr']
  rfl

end ln

section block

variable (d1 : DotDims (R384 n) M1 (R128 n)) (d2 : DotDims (R128 n) M2 (R128 n))
  (hb1 : P128.BroadcastsInDim P1x128 (![1] : Fin 1 → Fin P1x128.rank))
  (hb2 : P1x128.BroadcastsInDim (R128 n) (![0, 1] : Fin 2 → Fin (R128 n).rank))
  (hb0 : S0.BroadcastsInDim (R128 n) (![] : Fin 0 → Fin (R128 n).rank))
  (hbs : S0.BroadcastsInDim (R1 n) (![] : Fin 0 → Fin (R1 n).rank))
  (hbc : (Vn n).BroadcastsInDim (R1 n) (![0] : Fin 1 → Fin (R1 n).rank))
  (hbr : (R1 n).BroadcastsInDim (R128 n) (![0, 1] : Fin 2 → Fin (R128 n).rank))
  (hr : (R128 n).ReducesTo [1] (Vn n)) (h0 : 0 < S0.numel)
  (hcat : Shape.Concatenates [R128 n, R128 n, R128 n] (R384 n) 1)

def blockArr (A B C : FVec Ideal (R128 n) .f32) (W1 : FVec Ideal M1 .f32) (b1 : FVec Ideal P128 .f32) (W2 : FVec Ideal M2 .f32)
    (b2 g beta : FVec Ideal P128 .f32) : FVec Ideal (R128 n) .f32 :=
  lnArr hb1 hb2 hbs hbc hbr hr h0
    (mlpArr d1 d2 hb1 hb2 hb0 (concatenate (R384 n) 1 [⟨R128 n, A⟩, ⟨R128 n, B⟩, ⟨R128 n, C⟩] hcat) W1 b1 W2 b2) g beta

variable (hlc1 : d1.lhsContracting = [1]) (hrc1 : d1.rhsContracting = [0]) (hln1 : d1.lhsNonContracting = [0])
  (hrn1 : d1.rhsNonContracting = [1]) (hlb1 : d1.lhsBatch = []) (hrb1 : d1.rhsBatch = [])
  (hlc2 : d2.lhsContracting = [1]) (hrc2 : d2.rhsContracting = [0]) (hln2 : d2.lhsNonContracting = [0])
  (hrn2 : d2.rhsNonContracting = [1]) (hlb2 : d2.lhsBatch = []) (hrb2 : d2.rhsBatch = [])
  (hr' : (R128 n).Reduces [1] (Vn n))

include hlc1 hrc1 hln1 hrn1 hlb1 hrb1 hlc2 hrc2 hln2 hrn2 hlb2 hrb2 hr' in

theorem blockArr_apply (A B C : FVec Ideal (R128 n) .f32) (W1 : FVec Ideal M1 .f32) (b1 : FVec Ideal P128 .f32)
    (W2 : FVec Ideal M2 .f32) (b2 g beta : FVec Ideal P128 .f32) (p : Fin n) (q : Fin 128) :
    blockArr d1 d2 hb1 hb2 hb0 hbs hbc hbr hr h0 hcat A B C W1 b1 W2 b2 g beta (ix2 p q)
      = rowLN (fun k j => W1 (ix2 k j)) (fun j => b1 (ix1 j)) (fun k j => W2 (ix2 k j)) (fun j => b2 (ix1 j))
          (fun j => g (ix1 j)) (fun j => beta (ix1 j))
          (cat3 (fun k => A (ix2 p k)) (fun k => B (ix2 p k)) (fun k => C (ix2 p k))) q := by
  unfold blockArr rowLN
  rw [lnArr_apply hb1 hb2 hbs hbc hbr hr h0 hr']
  simp only [mlpArr_apply d1 d2 hb1 hb2 hb0 hlc1 hrc1 hln1 hrn1 hlb1 hrb1 hlc2 hrc2 hln2 hrn2 hlb2 hrb2, concat3_apply hcat]

end block

end Cert.RefBlock

end
-- ==== Proof.Target.lean ====
import proofs.«408938_j13219909337176_3_alg».proof.KernelIdeal
import proofs.«408938_j13219909337176_3_alg».proof.Proof.Spec
import Idealize.ShloMosaic.Lib.ValueIdx

noncomputable section

namespace Cert.Target

open Idealize.ShloMosaic Idealize.ShloMosaic.ValueIdx Cert.KernelIdeal Cert.Spec

variable [Cert.KernelIdeal.Facts₀]
open Cert.KernelIdeal.Facts₀

abbrev Nodes := (⟨S100000x128, .f32⟩ : BufTy).Contents (Elt Ideal)
abbrev MIdx := (⟨S400000, .i32⟩ : BufTy).Contents (Elt Ideal)
abbrev WIdx := (⟨S200000, .i32⟩ : BufTy).Contents (Elt Ideal)
abbrev MRows := (⟨S400000x128, .f32⟩ : BufTy).Contents (Elt Ideal)
abbrev WRows := (⟨S200000x128, .f32⟩ : BufTy).Contents (Elt Ideal)
abbrev Mat1 := (⟨S384x128, .f32⟩ : BufTy).Contents (Elt Ideal)
abbrev Mat2 := (⟨S128x128, .f32⟩ : BufTy).Contents (Elt Ideal)
abbrev Row := (⟨S128, .f32⟩ : BufTy).Contents (Elt Ideal)

def rowOf (W1 : Mat1) (b1 : Row) (W2 : Mat2) (b2 g beta : Row) (x : Fin 384 → EReal) (j : Fin 128) : EReal :=
  rowLN (fun k q => W1 (ix2 k q)) (fun q => b1 (ix1 q)) (fun k q => W2 (ix2 k q)) (fun q => b2 (ix1 q))
    (fun q => g (ix1 q)) (fun q => beta (ix1 q)) x j

def normM (s : MIdx) : (⟨S400000x1, .i32⟩ : BufTy).Contents (Elt Ideal) :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 100000#32))) s)
def normW (s : WIdx) : (⟨S200000x1, .i32⟩ : BufTy).Contents (Elt Ideal) :=
  broadcastInDim S200000x1 ![0] bcast_S200000_S200000x1_0
    (select (cmpi .slt s (broadcastInDim S200000 ![] bcast_S_S200000 (constantI S_ 32 0#32)))
      (addi s (broadcastInDim S200000 ![] bcast_S_S200000 (constantI S_ 32 100000#32))) s)

def gatherM (nodes : Nodes) (s : MIdx) : MRows :=
  Host.gather gather_S100000x128_S400000x1_S400000x128_1_0_n_n_0_1_1128 nodes (normM s)
def gatherW (nodes : Nodes) (s : WIdx) : WRows :=
  Host.gather gather_S100000x128_S200000x1_S200000x128_1_0_n_n_0_1_1128 nodes (normW s)

def meshPre (nodes : Nodes) (snd rcv : MIdx) (ef : MRows) (W1 : Mat1) (b1 : Row) (W2 : Mat2) (b2 g beta : Row) : MRows :=
  fun i => rowOf W1 b1 W2 b2 g beta
    (cat3 (fun k => gatherM nodes snd (ix2 (i 0) k)) (fun k => gatherM nodes rcv (ix2 (i 0) k)) (fun k => ef (ix2 (i 0) k))) (i 1)
def worldPre (nodes : Nodes) (snd rcv : WIdx) (ef : WRows) (W1 : Mat1) (b1 : Row) (W2 : Mat2) (b2 g beta : Row) : WRows :=
  fun i => rowOf W1 b1 W2 b2 g beta
    (cat3 (fun k => gatherW nodes snd (ix2 (i 0) k)) (fun k => gatherW nodes rcv (ix2 (i 0) k)) (fun k => ef (ix2 (i 0) k))) (i 1)

def meshOut (nodes : Nodes) (snd rcv : MIdx) (ef : MRows) (W1 : Mat1) (b1 : Row) (W2 : Mat2) (b2 g beta : Row) : MRows :=
  fun i => meshPre nodes snd rcv ef W1 b1 W2 b2 g beta i + ef i
def worldOut (nodes : Nodes) (snd rcv : WIdx) (ef : WRows) (W1 : Mat1) (b1 : Row) (W2 : Mat2) (b2 g beta : Row) : WRows :=
  fun i => worldPre nodes snd rcv ef W1 b1 W2 b2 g beta i + ef i

def aggM (rcv : MIdx) (u : MRows) : Nodes :=
  Host.scatterAdd scatter_S100000x128_S400000x1_S400000x128_1_0_0_1
    (broadcastInDim S100000x128 ![] bcast_S_S100000x128 (constant (F := Ideal) S_ .f32 0x00000000#32))
    (broadcastInDim S400000x1 ![0] bcast_S400000_S400000x1_0 rcv) u
def aggW (rcv : WIdx) (u : WRows) : Nodes :=
  Host.scatterAdd scatter_S100000x128_S200000x1_S200000x128_1_0_0_1
    (broadcastInDim S100000x128 ![] bcast_S_S100000x128 (constant (F := Ideal) S_ .f32 0x00000000#32))
    (broadcastInDim S200000x1 ![0] bcast_S200000_S200000x1_0 rcv) u

def nodeOut (nodes am aw : Nodes) (W1 : Mat1) (b1 : Row) (W2 : Mat2) (b2 g beta : Row) : Nodes :=
  fun i => rowOf W1 b1 W2 b2 g beta
    (cat3 (fun k => nodes (ix2 (i 0) k)) (fun k => am (ix2 (i 0) k)) (fun k => aw (ix2 (i 0) k))) (i 1) + nodes i

end Cert.Target

end
-- ==== Proof.RefRun.lean ====
import proofs.«408938_j13219909337176_3_alg».proof.Proof.RefOps
import proofs.«408938_j13219909337176_3_alg».proof.Proof.RefValue1
import proofs.«408938_j13219909337176_3_alg».proof.Proof.Target

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.RefBlock

variable [Cert.KernelIdeal.Facts₀] (V0 : Valuation τ sig (Elt Ideal))

/-- The mesh block on (gathered senders, gathered receivers, edge rows), before the residual. -/
def mesh : (⟨S400000x128, .f32⟩ : BufTy).Contents (Elt Ideal) :=
  blockArr (n := 400000) dot_S400000x384_S384x128_S400000x128_1_0_0_1_n_n dot_S400000x128_S128x128_S400000x128_1_0_0_1_n_n
    bcast_S128_S1x128_1 bcast_S1x128_S400000x128_0_1 bcast_S_S400000x128 bcast_S_S400000x1 bcast_S400000_S400000x1_0
    bcast_S400000x1_S400000x128_0_1 reducesTo_S400000x128_S400000_d1 h_S_
    concatenates_S400000x128_S400000x128_S400000x128_S400000x384_d1
    (Cert.Target.gatherM (V0 (Proc.devRef .tc main_arg0)) (V0 (Proc.devRef .tc main_arg1))) (Cert.Target.gatherM (V0 (Proc.devRef .tc main_arg0)) (V0 (Proc.devRef .tc main_arg2))) (V0 (Proc.devRef .tc main_arg3)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))

/-- The world block, likewise. -/
def world : (⟨S200000x128, .f32⟩ : BufTy).Contents (Elt Ideal) :=
  blockArr (n := 200000) dot_S200000x384_S384x128_S200000x128_1_0_0_1_n_n dot_S200000x128_S128x128_S200000x128_1_0_0_1_n_n
    bcast_S128_S1x128_1 bcast_S1x128_S200000x128_0_1 bcast_S_S200000x128 bcast_S_S200000x1 bcast_S200000_S200000x1_0
    bcast_S200000x1_S200000x128_0_1 reducesTo_S200000x128_S200000_d1 h_S_
    concatenates_S200000x128_S200000x128_S200000x128_S200000x384_d1
    (Cert.Target.gatherW (V0 (Proc.devRef .tc main_arg0)) (V0 (Proc.devRef .tc main_arg4))) (Cert.Target.gatherW (V0 (Proc.devRef .tc main_arg0)) (V0 (Proc.devRef .tc main_arg5))) (V0 (Proc.devRef .tc main_arg6)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))

/-- The node block on (node rows, the two scatter-sums of the edge blocks), before the residual. -/
def node : (⟨S100000x128, .f32⟩ : BufTy).Contents (Elt Ideal) :=
  blockArr (n := 100000) dot_S100000x384_S384x128_S100000x128_1_0_0_1_n_n dot_S100000x128_S128x128_S100000x128_1_0_0_1_n_n
    bcast_S128_S1x128_1 bcast_S1x128_S100000x128_0_1 bcast_S_S100000x128 bcast_S_S100000x1 bcast_S100000_S100000x1_0
    bcast_S100000x1_S100000x128_0_1 reducesTo_S100000x128_S100000_d1 h_S_
    concatenates_S100000x128_S100000x128_S100000x128_S100000x384_d1
    (V0 (Proc.devRef .tc main_arg0)) (Cert.Target.aggM (V0 (Proc.devRef .tc main_arg2)) (mesh V0)) (Cert.Target.aggW (V0 (Proc.devRef .tc main_arg5)) (world V0)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24))

def val1 : Valuation τ sig (Elt Ideal) := after opsA V0
def val2 : Valuation τ sig (Elt Ideal) := after opsB (val1 V0)
def val3 : Valuation τ sig (Elt Ideal) := after opsC1 (val2 V0)
def val4 : Valuation τ sig (Elt Ideal) := after opsC2 (val3 V0)
def val5 : Valuation τ sig (Elt Ideal) := after opsD (val4 V0)
def val6 : Valuation τ sig (Elt Ideal) := after opsE1 (val5 V0)
def val7 : Valuation τ sig (Elt Ideal) := after opsE2 (val6 V0)
def val8 : Valuation τ sig (Elt Ideal) := after opsF (val7 V0)

theorem after_ops : after ops V0 = val8 V0 := by
  simp only [ops, StableHlo.after_append]
  rfl

/-! No line writes an argument. -/

theorem val1_arg {r : Ref sig .tc} (h : r ∈ args) : val1 V0 (Proc.devRef .tc r) = V0 (Proc.devRef .tc r) :=
  keep writes_in.1 _ ((by decide : ∀ r ∈ args, r ∉ opsA_W) r h) rfl
theorem val2_arg {r : Ref sig .tc} (h : r ∈ args) : val2 V0 (Proc.devRef .tc r) = V0 (Proc.devRef .tc r) :=
  keep writes_in.2.1 _ ((by decide : ∀ r ∈ args, r ∉ opsB_W) r h) (val1_arg V0 h)
theorem val3_arg {r : Ref sig .tc} (h : r ∈ args) : val3 V0 (Proc.devRef .tc r) = V0 (Proc.devRef .tc r) :=
  keep writes_in.2.2.1 _ ((by decide : ∀ r ∈ args, r ∉ opsC1_W) r h) (val2_arg V0 h)
theorem val4_arg {r : Ref sig .tc} (h : r ∈ args) : val4 V0 (Proc.devRef .tc r) = V0 (Proc.devRef .tc r) :=
  keep writes_in.2.2.2.1 _ ((by decide : ∀ r ∈ args, r ∉ opsC2_W) r h) (val3_arg V0 h)
theorem val5_arg {r : Ref sig .tc} (h : r ∈ args) : val5 V0 (Proc.devRef .tc r) = V0 (Proc.devRef .tc r) :=
  keep writes_in.2.2.2.2.1 _ ((by decide : ∀ r ∈ args, r ∉ opsD_W) r h) (val4_arg V0 h)
theorem val6_arg {r : Ref sig .tc} (h : r ∈ args) : val6 V0 (Proc.devRef .tc r) = V0 (Proc.devRef .tc r) :=
  keep writes_in.2.2.2.2.2.1 _ ((by decide : ∀ r ∈ args, r ∉ opsE1_W) r h) (val5_arg V0 h)
theorem val7_arg {r : Ref sig .tc} (h : r ∈ args) : val7 V0 (Proc.devRef .tc r) = V0 (Proc.devRef .tc r) :=
  keep writes_in.2.2.2.2.2.2.1 _ ((by decide : ∀ r ∈ args, r ∉ opsE2_W) r h) (val6_arg V0 h)
theorem val8_arg {r : Ref sig .tc} (h : r ∈ args) : val8 V0 (Proc.devRef .tc r) = V0 (Proc.devRef .tc r) :=
  keep writes_in.2.2.2.2.2.2.2 _ ((by decide : ∀ r ∈ args, r ∉ opsF_W) r h) (val7_arg V0 h)

/-! What each line leaves in the buffers a later line reads. -/

set_option maxRecDepth 8192 in
set_option maxHeartbeats 3600000 in
theorem val1_v6 : val1 V0 (Proc.devRef .tc main_v6) = Cert.Target.gatherM (V0 (Proc.devRef .tc main_arg0)) (V0 (Proc.devRef .tc main_arg1)) := by
  unfold val1; simp only [opsA]; after_results_simp; rfl
set_option maxRecDepth 8192 in
set_option maxHeartbeats 3600000 in
theorem val1_v13 : val1 V0 (Proc.devRef .tc main_v13) = Cert.Target.gatherM (V0 (Proc.devRef .tc main_arg0)) (V0 (Proc.devRef .tc main_arg2)) := by
  unfold val1; simp only [opsA]; after_results_simp; rfl

set_option maxRecDepth 8192 in
set_option maxHeartbeats 8200000 in
theorem val2_v47 : val2 V0 (Proc.devRef .tc main_v47) = mesh V0 := by
  unfold val2; simp only [opsB]; after_results_simp
  try dsimp only [Matrix.cons_val]
  simp (disch := decide) only [val1_arg V0]
  rw [val1_v6 V0, val1_v13 V0, val1_arg V0 (r := main_arg3) (by decide)]
  rfl

theorem val7_v47 : val7 V0 (Proc.devRef .tc main_v47) = mesh V0 :=
  keep writes_in.2.2.2.2.2.2.1 _ (by decide) (keep writes_in.2.2.2.2.2.1 _ (by decide) (keep writes_in.2.2.2.2.1 _ (by decide) (keep writes_in.2.2.2.1 _ (by decide)
    (keep writes_in.2.2.1 _ (by decide) (val2_v47 V0)))))

set_option maxRecDepth 8192 in
set_option maxHeartbeats 600000 in
theorem val3_v49 : val3 V0 (Proc.devRef .tc main_v49)
    = cmpi .slt (V0 (Proc.devRef .tc main_arg4)) (broadcastInDim S200000 ![] bcast_S_S200000 (constantI S_ 32 0#32)) := by
  unfold val3; simp only [opsC1]; after_results_simp
  simp (disch := decide) only [val2_arg V0]

set_option maxRecDepth 8192 in
set_option maxHeartbeats 3600000 in
theorem val4_v54 : val4 V0 (Proc.devRef .tc main_v54) = Cert.Target.gatherW (V0 (Proc.devRef .tc main_arg0)) (V0 (Proc.devRef .tc main_arg4)) := by
  unfold val4; simp only [opsC2]; after_results_simp
  simp (disch := decide) only [val3_arg V0, val3_v49 V0]
  rfl
set_option maxRecDepth 8192 in
set_option maxHeartbeats 3600000 in
theorem val4_v61 : val4 V0 (Proc.devRef .tc main_v61) = Cert.Target.gatherW (V0 (Proc.devRef .tc main_arg0)) (V0 (Proc.devRef .tc main_arg5)) := by
  unfold val4; simp only [opsC2]; after_results_simp
  simp (disch := decide) only [val3_arg V0]
  rfl

set_option maxRecDepth 8192 in
set_option maxHeartbeats 8200000 in
theorem val5_v95 : val5 V0 (Proc.devRef .tc main_v95) = world V0 := by
  unfold val5; simp only [opsD]; after_results_simp
  try dsimp only [Matrix.cons_val]
  simp (disch := decide) only [val4_arg V0]
  rw [val4_v54 V0, val4_v61 V0, val4_arg V0 (r := main_arg6) (by decide)]
  rfl

theorem val7_v95 : val7 V0 (Proc.devRef .tc main_v95) = world V0 :=
  keep writes_in.2.2.2.2.2.2.1 _ (by decide) (keep writes_in.2.2.2.2.2.1 _ (by decide) (val5_v95 V0))

set_option maxRecDepth 8192 in
set_option maxHeartbeats 1200000 in
theorem val7_v98 : val7 V0 (Proc.devRef .tc main_v98) = Cert.Target.aggM (V0 (Proc.devRef .tc main_arg2)) (mesh V0) := by
  refine keep writes_in.2.2.2.2.2.2.1 _ (by decide) ?_
  unfold val6; simp only [opsE1]; after_results_simp
  simp (disch := decide) only [val5_arg V0,
    show val5 V0 (Proc.devRef .tc main_v47) = mesh V0 from keep writes_in.2.2.2.2.1 _ (by decide) (keep writes_in.2.2.2.1 _ (by decide) (keep writes_in.2.2.1 _ (by decide) (val2_v47 V0)))]
  rfl

set_option maxRecDepth 8192 in
set_option maxHeartbeats 1200000 in
theorem val7_v101 : val7 V0 (Proc.devRef .tc main_v101) = Cert.Target.aggW (V0 (Proc.devRef .tc main_arg5)) (world V0) := by
  unfold val7 val6; simp only [opsE2, opsE1]; after_results_simp
  simp (disch := decide) only [val5_arg V0, val5_v95 V0]
  rfl

/-- The three results: each block's array plus the residual. -/
def nodeRes := addf (F := Ideal) (s := S100000x128) (φ := .f32) (node V0) (V0 (Proc.devRef .tc main_arg0))
def meshRes := addf (F := Ideal) (s := S400000x128) (φ := .f32) (mesh V0) (V0 (Proc.devRef .tc main_arg3))
def worldRes := addf (F := Ideal) (s := S200000x128) (φ := .f32) (world V0) (V0 (Proc.devRef .tc main_arg6))

set_option maxRecDepth 8192 in
set_option maxHeartbeats 8800000 in
theorem val8_v136 : val8 V0 (Proc.devRef .tc main_v136) = nodeRes V0 := by
  unfold val8; simp only [opsF]; after_results_simp
  try dsimp only [Matrix.cons_val]
  simp (disch := decide) only [val7_arg V0]
  rw [val7_v98 V0, val7_v101 V0, val7_arg V0 (r := main_arg0) (by decide)]
  rfl
set_option maxRecDepth 8192 in
set_option maxHeartbeats 8800000 in
theorem val8_v137 : val8 V0 (Proc.devRef .tc main_v137) = meshRes V0 := by
  unfold val8; simp only [opsF]; after_results_simp
  simp (disch := decide) only [val7_arg V0, val7_v47 V0]
  rfl
set_option maxRecDepth 8192 in
set_option maxHeartbeats 8800000 in
theorem val8_v138 : val8 V0 (Proc.devRef .tc main_v138) = worldRes V0 := by
  unfold val8; simp only [opsF]; after_results_simp
  simp (disch := decide) only [val7_arg V0, val7_v95 V0]
  rfl

omit V0 in
set_option maxRecDepth 8192 in
set_option maxHeartbeats 4000000 in
/-- Every weakly fair execution ends with the three results at the blocks' arrays of the launch contents and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v136) = nodeRes (launchContents m c)
      ∧ r.2.mem ((c.tc : Thread nD τ).loc main_v137) = meshRes (launchContents m c)
      ∧ r.2.mem ((c.tc : Thread nD τ).loc main_v138) = worldRes (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun x h c =>
    have a : ∀ {r : Ref sig .tc}, r ∈ args → x.2.mem ((c.tc : Thread nD τ).loc r) = m ((c.tc : Thread nD τ).loc r) :=
      fun hr => (h c _).trans ((congrFun (after_ops _) _).trans (val8_arg _ hr))
    ⟨(h c main_v136).trans ((congrFun (after_ops _) _).trans (val8_v136 _)),
      (h c main_v137).trans ((congrFun (after_ops _) _).trans (val8_v137 _)),
      (h c main_v138).trans ((congrFun (after_ops _) _).trans (val8_v138 _)),
      a (by decide), a (by decide), a (by decide), a (by decide), a (by decide), a (by decide), a (by decide), a (by decide), a (by decide), a (by decide), a (by decide), a (by decide), a (by decide), a (by decide), a (by decide), a (by decide), a (by decide), a (by decide), a (by decide), a (by decide), a (by decide), a (by decide), a (by decide), a (by decide), a (by decide)⟩)
    (run_seq scopedRefs_eq scopedSems_eq defs main (fun _ => ops) main_eq (fun _ => ops_sub) m ρ (fun _ => ops_fresh))

end Cert.ReferenceIdeal.HandRun

end
-- ==== Proof.ChainIn.lean ====
import proofs.«408938_j13219909337176_3_alg».proof.Proof.PKernelIdealFrame
import proofs.«408938_j13219909337176_3_alg».proof.Proof.Target
import Idealize.ShloMosaic.Lib.StableHlo.Run
import Idealize.ShloMosaic.Lib.ValueIdx
import Idealize.ShloMosaic.Lib.ValueLayout

set_option maxRecDepth 16384

noncomputable section

namespace Cert.KernelIdeal.Chain

open Idealize.ShloMosaic Idealize.ShloMosaic.TcCoe Idealize.ShloMosaic.ValueIdx Idealize.ShloMosaic.StableHlo
open Cert.KernelIdeal Cert.KernelIdeal.Gen Cert.KernelIdeal.GenP

variable [Cert.KernelIdeal.Facts]
variable (m : (ℓ : Loc nD τ sig) → Buf (Elt Ideal) ℓ) (ρ : Dev nD → PrngReg)

local macro "not_written" : tactic => `(tactic| (
  refine List.forall_iff_forall_mem.mp ?_
  simp only [hostOps0, hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A row of 128 reshaped to a 1 × 128 array reads the same at column q. -/
theorem row_of_cast {X : (⟨S1x128, .f32⟩ : BufTy).Contents (Elt Ideal)} {x : (⟨S128, .f32⟩ : BufTy).Contents (Elt Ideal)}
    (e : X = shapeCast S1x128 x shapeCasts_S128_S1x128) (q : Fin 128) : X (ix2 0 q) = x (ix1 q) := by
  rw [e]
  exact shapeCast_a_1a_apply (a := 128) _ _ 0 q

theorem V1_v25 (c : Dev nD) :
    (V1 (F := Ideal) m ρ c main_v25 : Cert.Target.MRows) = Cert.Target.gatherM (m ((c : Thread nD τ).loc main_arg0)) (m ((c : Thread nD τ).loc main_arg1)) := by
  show StableHlo.after hostOps0 (W0 m ρ c) (Proc.devRef .tc main_v25) = _
  after_results_simp
  rfl

theorem V1_v32 (c : Dev nD) :
    (V1 (F := Ideal) m ρ c main_v32 : Cert.Target.MRows) = Cert.Target.gatherM (m ((c : Thread nD τ).loc main_arg0)) (m ((c : Thread nD τ).loc main_arg2)) := by
  show StableHlo.after hostOps0 (W0 m ρ c) (Proc.devRef .tc main_v32) = _
  after_results_simp
  rfl

theorem V1_arg3 (c : Dev nD) : V1 (F := Ideal) m ρ c main_arg3 = (m ((c : Thread nD τ).loc main_arg3)) :=
  StableHlo.after_of_forall_not_mem (b := Proc.devRef .tc main_arg3) _ _ (by not_written)

theorem V1_v0 (c : Dev nD) : (V1 (F := Ideal) m ρ c main_v0 : Cert.Target.Mat1) = (m ((c : Thread nD τ).loc main_arg7)) := by
  show StableHlo.after hostOps0 (W0 m ρ c) (Proc.devRef .tc main_v0) = _
  after_results_simp
  rfl

theorem V1_v2 (c : Dev nD) : (V1 (F := Ideal) m ρ c main_v2 : Cert.Target.Mat2) = (m ((c : Thread nD τ).loc main_arg9)) := by
  show StableHlo.after hostOps0 (W0 m ρ c) (Proc.devRef .tc main_v2) = _
  after_results_simp
  rfl

theorem V1_v1 (c : Dev nD) (q : Fin 128) :
    (V1 (F := Ideal) m ρ c main_v1 : (⟨S1x128, .f32⟩ : BufTy).Contents (Elt Ideal)) (ix2 0 q) = (m ((c : Thread nD τ).loc main_arg8)) (ix1 q) :=
  row_of_cast (by
    show StableHlo.after hostOps0 (W0 m ρ c) (Proc.devRef .tc main_v1) = _
    after_results_simp
    rfl) q

theorem V1_v3 (c : Dev nD) (q : Fin 128) :
    (V1 (F := Ideal) m ρ c main_v3 : (⟨S1x128, .f32⟩ : BufTy).Contents (Elt Ideal)) (ix2 0 q) = (m ((c : Thread nD τ).loc main_arg10)) (ix1 q) :=
  row_of_cast (by
    show StableHlo.after hostOps0 (W0 m ρ c) (Proc.devRef .tc main_v3) = _
    after_results_simp
    rfl) q

theorem V1_v4 (c : Dev nD) (q : Fin 128) :
    (V1 (F := Ideal) m ρ c main_v4 : (⟨S1x128, .f32⟩ : BufTy).Contents (Elt Ideal)) (ix2 0 q) = (m ((c : Thread nD τ).loc main_arg11)) (ix1 q) :=
  row_of_cast (by
    show StableHlo.after hostOps0 (W0 m ρ c) (Proc.devRef .tc main_v4) = _
    after_results_simp
    rfl) q

theorem V1_v5 (c : Dev nD) (q : Fin 128) :
    (V1 (F := Ideal) m ρ c main_v5 : (⟨S1x128, .f32⟩ : BufTy).Contents (Elt Ideal)) (ix2 0 q) = (m ((c : Thread nD τ).loc main_arg12)) (ix1 q) :=
  row_of_cast (by
    show StableHlo.after hostOps0 (W0 m ρ c) (Proc.devRef .tc main_v5) = _
    after_results_simp
    rfl) q

theorem W3_of_ne (c : Dev nD) (b : Ref sig .tc) (h0 : ∀ w, Pipeline.arrRef spec0 w ≠ b)
    (h1 : ∀ op ∈ (hostOps1 : List (HloOp τ sig (Elt Ideal))), Proc.devRef .tc b ∉ op.writes) :
    W3 (F := Ideal) m ρ c (Proc.devRef .tc b) = W1 (F := Ideal) m ρ c (Proc.devRef .tc b) :=
  (StableHlo.after_of_forall_not_mem (b := Proc.devRef .tc b) _ _ h1).trans (W2_of_ne m ρ c b h0)

theorem W2_v18 (c : Dev nD) :
    (W2 (F := Ideal) m ρ c (Proc.devRef .tc main_v18) : Cert.Target.Nodes) = (m ((c : Thread nD τ).loc main_arg0)) := by
  refine (W2_of_ne m ρ c main_v18 (by decide)).trans ?_
  show StableHlo.after hostOps0 (W0 m ρ c) (Proc.devRef .tc main_v18) = _
  after_results_simp
  rfl

theorem W2_arg4 (c : Dev nD) : W2 (F := Ideal) m ρ c (Proc.devRef .tc main_arg4) = (m ((c : Thread nD τ).loc main_arg4)) :=
  (W2_of_ne m ρ c main_arg4 (by decide)).trans
    (StableHlo.after_of_forall_not_mem (b := Proc.devRef .tc main_arg4) _ _ (by not_written))

theorem W2_arg5 (c : Dev nD) : W2 (F := Ideal) m ρ c (Proc.devRef .tc main_arg5) = (m ((c : Thread nD τ).loc main_arg5)) :=
  (W2_of_ne m ρ c main_arg5 (by decide)).trans
    (StableHlo.after_of_forall_not_mem (b := Proc.devRef .tc main_arg5) _ _ (by not_written))

theorem V3_v40 (c : Dev nD) :
    (V3 (F := Ideal) m ρ c main_v40 : Cert.Target.WRows) = Cert.Target.gatherW (m ((c : Thread nD τ).loc main_arg0)) (m ((c : Thread nD τ).loc main_arg4)) := by
  show StableHlo.after hostOps1 (W2 m ρ c) (Proc.devRef .tc main_v40) = _
  after_results_simp
  rw [W2_v18 m ρ c, W2_arg4 m ρ c]
  rfl

theorem V3_v47 (c : Dev nD) :
    (V3 (F := Ideal) m ρ c main_v47 : Cert.Target.WRows) = Cert.Target.gatherW (m ((c : Thread nD τ).loc main_arg0)) (m ((c : Thread nD τ).loc main_arg5)) := by
  show StableHlo.after hostOps1 (W2 m ρ c) (Proc.devRef .tc main_v47) = _
  after_results_simp
  rw [W2_v18 m ρ c, W2_arg5 m ρ c]
  rfl

theorem V3_arg6 (c : Dev nD) : V3 (F := Ideal) m ρ c main_arg6 = (m ((c : Thread nD τ).loc main_arg6)) :=
  (W3_of_ne m ρ c main_arg6 (by decide) (by not_written)).trans
    (StableHlo.after_of_forall_not_mem (b := Proc.devRef .tc main_arg6) _ _ (by not_written))

theorem V3_v6 (c : Dev nD) : (V3 (F := Ideal) m ρ c main_v6 : Cert.Target.Mat1) = (m ((c : Thread nD τ).loc main_arg13)) := by
  refine (W3_of_ne m ρ c main_v6 (by decide) (by not_written)).trans ?_
  show StableHlo.after hostOps0 (W0 m ρ c) (Proc.devRef .tc main_v6) = _
  after_results_simp
  rfl

theorem V3_v8 (c : Dev nD) : (V3 (F := Ideal) m ρ c main_v8 : Cert.Target.Mat2) = (m ((c : Thread nD τ).loc main_arg15)) := by
  refine (W3_of_ne m ρ c main_v8 (by decide) (by not_written)).trans ?_
  show StableHlo.after hostOps0 (W0 m ρ c) (Proc.devRef .tc main_v8) = _
  after_results_simp
  rfl

theorem V3_v7 (c : Dev nD) (q : Fin 128) :
    (V3 (F := Ideal) m ρ c main_v7 : (⟨S1x128, .f32⟩ : BufTy).Contents (Elt Ideal)) (ix2 0 q) = (m ((c : Thread nD τ).loc main_arg14)) (ix1 q) :=
  row_of_cast (by
    refine (W3_of_ne m ρ c main_v7 (by decide) (by not_written)).trans ?_
    show StableHlo.after hostOps0 (W0 m ρ c) (Proc.devRef .tc main_v7) = _
    after_results_simp
    rfl) q

theorem V3_v9 (c : Dev nD) (q : Fin 128) :
    (V3 (F := Ideal) m ρ c main_v9 : (⟨S1x128, .f32⟩ : BufTy).Contents (Elt Ideal)) (ix2 0 q) = (m ((c : Thread nD τ).loc main_arg16)) (ix1 q) :=
  row_of_cast (by
    refine (W3_of_ne m ρ c main_v9 (by decide) (by not_written)).trans ?_
    show StableHlo.after hostOps0 (W0 m ρ c) (Proc.devRef .tc main_v9) = _
    after_results_simp
    rfl) q

theorem V3_v10 (c : Dev nD) (q : Fin 128) :
    (V3 (F := Ideal) m ρ c main_v10 : (⟨S1x128, .f32⟩ : BufTy).Contents (Elt Ideal)) (ix2 0 q) = (m ((c : Thread nD τ).loc main_arg17)) (ix1 q) :=
  row_of_cast (by
    refine (W3_of_ne m ρ c main_v10 (by decide) (by not_written)).trans ?_
    show StableHlo.after hostOps0 (W0 m ρ c) (Proc.devRef .tc main_v10) = _
    after_results_simp
    rfl) q

theorem V3_v11 (c : Dev nD) (q : Fin 128) :
    (V3 (F := Ideal) m ρ c main_v11 : (⟨S1x128, .f32⟩ : BufTy).Contents (Elt Ideal)) (ix2 0 q) = (m ((c : Thread nD τ).loc main_arg18)) (ix1 q) :=
  row_of_cast (by
    refine (W3_of_ne m ρ c main_v11 (by decide) (by not_written)).trans ?_
    show StableHlo.after hostOps0 (W0 m ρ c) (Proc.devRef .tc main_v11) = _
    after_results_simp
    rfl) q

end Cert.KernelIdeal.Chain

end
-- ==== Proof.ChainOut.lean ====
import proofs.«408938_j13219909337176_3_alg».proof.Proof.ChainIn
import Idealize.ShloMosaic.Lib.ValueLayout
import Idealize.ShloMosaic.Lib.StableHlo.Run

set_option maxRecDepth 16384

noncomputable section

namespace Cert.KernelIdeal.Chain

open Cert.KernelIdeal Cert.KernelIdeal.Gen Cert.KernelIdeal.GenP
open Idealize.ShloMosaic Idealize.ShloMosaic.TcCoe Idealize.ShloMosaic.ValueIdx

local macro "no_write" : tactic => `(tactic| (
  refine List.forall_iff_forall_mem.mp ?_
  simp only [hostOps0, hostOps1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

section Generic

variable {F : FTy → Type} [FloatOps F]
variable (m : (ℓ : Loc nD τ sig) → Buf (Elt F) ℓ) (ρ : Dev nD → PrngReg)

theorem W6_v55 (c : Dev nD) :
    W6 m ρ c (Proc.devRef .tc main_v55) = (dat2 (V5 m ρ) c).arrAt 9 cfg2.N :=
  W6_arr m ρ c 9

theorem W6_v33_0 (c : Dev nD) :
    W6 m ρ c (Proc.devRef .tc main_v33_0) = (dat0 (V1 m ρ) c).arrAt 9 cfg0.N :=
  calc W6 m ρ c (Proc.devRef .tc main_v33_0)
    _ = W5 m ρ c (Proc.devRef .tc main_v33_0) := W6_of_ne m ρ c main_v33_0 (by decide)
    _ = W4 m ρ c (Proc.devRef .tc main_v33_0) :=
          StableHlo.after_of_forall_not_mem (b := Proc.devRef .tc main_v33_0) _ _ (by no_write)
    _ = W3 m ρ c (Proc.devRef .tc main_v33_0) := W4_of_ne m ρ c main_v33_0 (by decide)
    _ = W2 m ρ c (Proc.devRef .tc main_v33_0) :=
          StableHlo.after_of_forall_not_mem (b := Proc.devRef .tc main_v33_0) _ _ (by no_write)
    _ = (dat0 (V1 m ρ) c).arrAt 9 cfg0.N := W2_arr m ρ c 9

theorem W6_v48_0 (c : Dev nD) :
    W6 m ρ c (Proc.devRef .tc main_v48_0) = (dat1 (V3 m ρ) c).arrAt 9 cfg1.N :=
  calc W6 m ρ c (Proc.devRef .tc main_v48_0)
    _ = W5 m ρ c (Proc.devRef .tc main_v48_0) := W6_of_ne m ρ c main_v48_0 (by decide)
    _ = W4 m ρ c (Proc.devRef .tc main_v48_0) :=
          StableHlo.after_of_forall_not_mem (b := Proc.devRef .tc main_v48_0) _ _ (by no_write)
    _ = (dat1 (V3 m ρ) c).arrAt 9 cfg1.N := W4_arr m ρ c 9

theorem W5_eq_W1 (c : Dev nD) (b : Ref sig .tc)
    (h2 : ∀ op ∈ (hostOps2 : List (HloOp τ sig (Elt F))), (Proc.devRef .tc b : DevRef τ sig) ∉ op.writes)
    (hs1 : ∀ w, Pipeline.arrRef spec1 w ≠ b)
    (h1 : ∀ op ∈ (hostOps1 : List (HloOp τ sig (Elt F))), (Proc.devRef .tc b : DevRef τ sig) ∉ op.writes)
    (hs0 : ∀ w, Pipeline.arrRef spec0 w ≠ b) :
    W5 m ρ c (Proc.devRef .tc b) = W1 m ρ c (Proc.devRef .tc b) :=
  calc W5 m ρ c (Proc.devRef .tc b)
    _ = W4 m ρ c (Proc.devRef .tc b) := StableHlo.after_of_forall_not_mem (b := Proc.devRef .tc b) _ _ h2
    _ = W3 m ρ c (Proc.devRef .tc b) := W4_of_ne m ρ c b hs1
    _ = W2 m ρ c (Proc.devRef .tc b) := StableHlo.after_of_forall_not_mem (b := Proc.devRef .tc b) _ _ h1
    _ = W1 m ρ c (Proc.devRef .tc b) := W2_of_ne m ρ c b hs0

theorem V5_arg0 (c : Dev nD) : V5 m ρ c main_arg0 = m ((c : Thread nD τ).loc main_arg0) :=
  calc W5 m ρ c (Proc.devRef .tc main_arg0)
    _ = W1 m ρ c (Proc.devRef .tc main_arg0) :=
          W5_eq_W1 m ρ c main_arg0 (by no_write) (by decide) (by no_write) (by decide)
    _ = W0 m ρ c (Proc.devRef .tc main_arg0) :=
          StableHlo.after_of_forall_not_mem (b := Proc.devRef .tc main_arg0) _ _ (by no_write)
    _ = m ((c : Thread nD τ).loc main_arg0) := rfl

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) :=
          StableHlo.after_of_forall_not_mem (b := Proc.devRef .tc main_arg2) _ _ (by no_write)
    _ = W1 m ρ c (Proc.devRef .tc main_arg2) := W2_of_ne m ρ c main_arg2 (by decide)
    _ = W0 m ρ c (Proc.devRef .tc main_arg2) :=
          StableHlo.after_of_forall_not_mem (b := Proc.devRef .tc main_arg2) _ _ (by no_write)
    _ = m ((c : Thread nD τ).loc main_arg2) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) :=
          StableHlo.after_of_forall_not_mem (b := Proc.devRef .tc main_arg5) _ _ (by no_write)
    _ = W1 m ρ c (Proc.devRef .tc main_arg5) := W2_of_ne m ρ c main_arg5 (by decide)
    _ = W0 m ρ c (Proc.devRef .tc main_arg5) :=
          StableHlo.after_of_forall_not_mem (b := Proc.devRef .tc main_arg5) _ _ (by no_write)
    _ = m ((c : Thread nD τ).loc main_arg5) := rfl

theorem W4_v33_1 (c : Dev nD) :
    W4 m ρ c (Proc.devRef .tc main_v33_1) = (dat0 (V1 m ρ) c).arrAt 10 cfg0.N :=
  calc W4 m ρ c (Proc.devRef .tc main_v33_1)
    _ = W3 m ρ c (Proc.devRef .tc main_v33_1) := W4_of_ne m ρ c main_v33_1 (by decide)
    _ = W2 m ρ c (Proc.devRef .tc main_v33_1) :=
          StableHlo.after_of_forall_not_mem (b := Proc.devRef .tc main_v33_1) _ _ (by no_write)
    _ = (dat0 (V1 m ρ) c).arrAt 10 cfg0.N := W2_arr m ρ c 10

theorem W4_v48_1 (c : Dev nD) :
    W4 m ρ c (Proc.devRef .tc main_v48_1) = (dat1 (V3 m ρ) c).arrAt 10 cfg1.N :=
  W4_arr m ρ c 10

end Generic

variable (m : (ℓ : Loc nD τ sig) → Buf (Elt Ideal) ℓ) (ρ : Dev nD → PrngReg)

theorem V5_v51 (c : Dev nD) :
    V5 m ρ c main_v51
      = Cert.Target.aggM (m ((c : Thread nD τ).loc main_arg2)) ((dat0 (V1 m ρ) c).arrAt 10 cfg0.N) := by
  have e : V5 m ρ c main_v51
      = Cert.Target.aggM (W4 m ρ c (Proc.devRef .tc main_arg2)) (W4 m ρ c (Proc.devRef .tc main_v33_1)) := by
    show StableHlo.after hostOps2 (W4 m ρ c) (Proc.devRef .tc main_v51) = _
    dsimp only [hostOps2]
    after_results
    rfl
  rw [e, W4_arg2, W4_v33_1]

theorem V5_v54 (c : Dev nD) :
    V5 m ρ c main_v54
      = Cert.Target.aggW (m ((c : Thread nD τ).loc main_arg5)) ((dat1 (V3 m ρ) c).arrAt 10 cfg1.N) := by
  have e : V5 m ρ c main_v54
      = Cert.Target.aggW (W4 m ρ c (Proc.devRef .tc main_arg5)) (W4 m ρ c (Proc.devRef .tc main_v48_1)) := by
    show StableHlo.after hostOps2 (W4 m ρ c) (Proc.devRef .tc main_v54) = _
    dsimp only [hostOps2]
    after_results
    rfl
  rw [e, W4_arg5, W4_v48_1]

theorem V5_v12 (c : Dev nD) :
    (V5 m ρ c main_v12 : (⟨S384x128, .bf16⟩ : BufTy).Contents (Elt Ideal)) = m ((c : Thread nD τ).loc main_arg19) := by
  refine (W5_eq_W1 m ρ c main_v12 (by no_write) (by decide) (by no_write) (by decide)).trans ?_
  show StableHlo.after hostOps0 (W0 m ρ c) (Proc.devRef .tc main_v12) = _
  dsimp only [hostOps0]
  after_results
  rfl

theorem V5_v14 (c : Dev nD) :
    (V5 m ρ c main_v14 : (⟨S128x128, .bf16⟩ : BufTy).Contents (Elt Ideal)) = m ((c : Thread nD τ).loc main_arg21) := by
  refine (W5_eq_W1 m ρ c main_v14 (by no_write) (by decide) (by no_write) (by decide)).trans ?_
  show StableHlo.after hostOps0 (W0 m ρ c) (Proc.devRef .tc main_v14) = _
  dsimp only [hostOps0]
  after_results
  rfl

theorem V5_v13 (c : Dev nD) (q : Fin 128) :
    (V5 m ρ c main_v13 : (⟨S1x128, .f32⟩ : BufTy).Contents (Elt Ideal)) (ix2 0 q)
      = (m ((c : Thread nD τ).loc main_arg20) : (⟨S128, .f32⟩ : BufTy).Contents (Elt Ideal)) (ix1 q) :=
  row_of_cast (by
    refine (W5_eq_W1 m ρ c main_v13 (by no_write) (by decide) (by no_write) (by decide)).trans ?_
    show StableHlo.after hostOps0 (W0 m ρ c) (Proc.devRef .tc main_v13) = _
    dsimp only [hostOps0]
    after_results
    rfl) q

theorem V5_v15 (c : Dev nD) (q : Fin 128) :
    (V5 m ρ c main_v15 : (⟨S1x128, .f32⟩ : BufTy).Contents (Elt Ideal)) (ix2 0 q)
      = (m ((c : Thread nD τ).loc main_arg22) : (⟨S128, .f32⟩ : BufTy).Contents (Elt Ideal)) (ix1 q) :=
  row_of_cast (by
    refine (W5_eq_W1 m ρ c main_v15 (by no_write) (by decide) (by no_write) (by decide)).trans ?_
    show StableHlo.after hostOps0 (W0 m ρ c) (Proc.devRef .tc main_v15) = _
    dsimp only [hostOps0]
    after_results
    rfl) q

theorem V5_v16 (c : Dev nD) (q : Fin 128) :
    (V5 m ρ c main_v16 : (⟨S1x128, .f32⟩ : BufTy).Contents (Elt Ideal)) (ix2 0 q)
      = (m ((c : Thread nD τ).loc main_arg23) : (⟨S128, .f32⟩ : BufTy).Contents (Elt Ideal)) (ix1 q) :=
  row_of_cast (by
    refine (W5_eq_W1 m ρ c main_v16 (by no_write) (by decide) (by no_write) (by decide)).trans ?_
    show StableHlo.after hostOps0 (W0 m ρ c) (Proc.devRef .tc main_v16) = _
    dsimp only [hostOps0]
    after_results
    rfl) q

theorem V5_v17 (c : Dev nD) (q : Fin 128) :
    (V5 m ρ c main_v17 : (⟨S1x128, .f32⟩ : BufTy).Contents (Elt Ideal)) (ix2 0 q)
      = (m ((c : Thread nD τ).loc main_arg24) : (⟨S128, .f32⟩ : BufTy).Contents (Elt Ideal)) (ix1 q) :=
  row_of_cast (by
    refine (W5_eq_W1 m ρ c main_v17 (by no_write) (by decide) (by no_write) (by decide)).trans ?_
    show StableHlo.after hostOps0 (W0 m ρ c) (Proc.devRef .tc main_v17) = _
    dsimp only [hostOps0]
    after_results
    rfl) q

end Cert.KernelIdeal.Chain

end
-- ==== Proof.BodyEdge0.lean ====
import proofs.«408938_j13219909337176_3_alg».proof.Proof.PKernelIdealFrame
import proofs.«408938_j13219909337176_3_alg».proof.Proof.Gen.KernelIdeal.Skeleton
import proofs.«408938_j13219909337176_3_alg».proof.Proof.Spec
import proofs.«408938_j13219909337176_3_alg».proof.Proof.LibDense
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.KernelIdeal.GenP Cert.Spec

section Layout
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem lift_ix1 {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction (F := Ideal) .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_ix1 h p k))

theorem rsqrt_apply {s : Shape} {φ : FTy} (x : FVec Ideal s φ) (i : s.Idx) : rsqrt x i = Ideal.rsqrt (x i) := rfl

theorem ld_rows_apply {Val : EltTy → Type} {e : EltTy} {n c b o : ℕ} (X : (⟨2, ![n, c]⟩ : Shape).Idx → Val e)
    (inb : ∀ ax, (![o, 0] : Fin 2 → ℕ) ax + (![b, c] : Fin 2 → ℕ) ax ≤ (⟨2, ![n, c]⟩ : Shape).size ax)
    (k : Fin b) (q : Fin c) (i : Fin n) (hi : i.val = o + k.val) :
    View.ld X (Rect.unit (s := ⟨2, ![n, c]⟩) ![o, 0] ![b, c] inb) (ix2 k q) = X (ix2 i q) := by
  show X _ = X _
  congr 1
  funext ax
  apply Fin.ext
  match ax with
  | ⟨0, _⟩ => show o + 1 * k.val = i.val; rw [Nat.one_mul, hi]
  | ⟨1, _⟩ => show 0 + 1 * q.val = q.val; rw [Nat.one_mul, Nat.zero_add]

end Layout
variable [Cert.KernelIdeal.Facts]

theorem mm_apply {φ₁ φ₂ : FTy} (x : FVec Ideal S4000x128 φ₁) (w : FVec Ideal S128x128 φ₂) (p : Fin 4000) (q : Fin 128) :
    matmul dot_S4000x128_S128x128_S4000x128_1_0_0_1_n_n none x w (constant (F := Ideal) S4000x128 .f32 0x00000000#32) (ix2 p q)
      = ∑ kk : Fin 128, x (ix2 p kk) * w (ix2 kk q) :=
  Cert.LibDense.matmul_zero_apply dot_S4000x128_S128x128_S4000x128_1_0_0_1_n_n none rfl rfl rfl rfl rfl rfl x w p q

private theorem pay5_apply (r : Fin 4000) (u : Fin 1) : k0_pay5 (F := Ideal) (ix2 r u) = n128W := rfl

private theorem pay3_apply (v0 v2 : Vec Ideal S4000x128 .bf16) (v4 : Vec Ideal S4000x128 .f32) (v6 v8 v10 : Vec Ideal S128x128 .bf16)
    (v17 : Vec Ideal S1x128 .f32) (v24 : Vec Ideal S128x128 .bf16) (v27 : Vec Ideal S1x128 .f32) (r : Fin 4000) (j : Fin 128) :
    k0_pay3 (F := Ideal) v0 v2 v4 v6 v8 v10 v17 v24 v27 (ix2 r j)
      = (∑ k : Fin 128, max ((((∑ kk : Fin 128, v0 (ix2 r kk) * v6 (ix2 kk k)) + ∑ kk : Fin 128, v2 (ix2 r kk) * v8 (ix2 kk k))
            + ∑ kk : Fin 128, v4 (ix2 r kk) * v10 (ix2 kk k)) + v17 (ix2 0 k)) zeroW * v24 (ix2 k j)) + v27 (ix2 0 j) := by
  unfold k0_pay3
  simp only [shapeCast_self]
  rw [addf_apply, broadcastTo_1b_ab_apply, mm_apply]
  refine congrArg (· + v27 (ix2 0 j)) (Finset.sum_congr rfl fun k _ => ?_)
  rw [truncf_apply, maximumf_apply, broadcast_apply, addf_apply, broadcastTo_1b_ab_apply, addf_apply, addf_apply,
    mm_apply, mm_apply, mm_apply]
  rfl

private theorem pay4_apply (v0 v2 : Vec Ideal S4000x128 .bf16) (v4 : Vec Ideal S4000x128 .f32) (v6 v8 v10 : Vec Ideal S128x128 .bf16)
    (v17 : Vec Ideal S1x128 .f32) (v24 : Vec Ideal S128x128 .bf16) (v27 : Vec Ideal S1x128 .f32) (r : Fin 4000) (u : Fin 1) :
    k0_pay4 (F := Ideal) v0 v2 v4 v6 v8 v10 v17 v24 v27 (ix2 r u)
      = ∑ q : Fin 128, k0_pay3 (F := Ideal) v0 v2 v4 v6 v8 v10 v17 v24 v27 (ix2 r q) := by
  unfold k0_pay4
  exact (shapeCast_a_a1_apply _ _ r u).trans (rowSum_apply _ _ _ _ _ r)

private theorem pay1_apply (y : FVec Ideal S4000x128 .f32) (s n : FVec Ideal S4000x1 .f32) (g beta : Vec Ideal S1x128 .f32)
    (r : Fin 4000) (j : Fin 128) :
    k0_pay1 (F := Ideal) y s n g beta (ix2 r j)
      = (g (ix2 0 j) * (y (ix2 r j) - Ideal.div (s (ix2 r 0)) (n (ix2 r 0))))
          * Ideal.rsqrt (Ideal.div (∑ q : Fin 128, (y (ix2 r q) - Ideal.div (s (ix2 r 0)) (n (ix2 r 0)))
              * (y (ix2 r q) - Ideal.div (s (ix2 r 0)) (n (ix2 r 0)))) n128W + epsW)
          + beta (ix2 0 j) := by
  unfold k0_pay1
  simp only [shapeCast_self, addf_apply, mulf_apply, subf_apply, divf_apply, broadcast_apply, broadcastTo_1b_ab_apply,
    broadcastTo_a1_ab_apply, shapeCast_a_a1_apply, rsqrt_apply]
  refine congrArg (fun t => g (ix2 0 j) * (y (ix2 r j) - Ideal.div (s (ix2 r 0)) (n (ix2 r 0)))
    * Ideal.rsqrt (Ideal.div t n128W + epsW) + beta (ix2 0 j)) ?_
  refine (rowSum_apply _ _ _ _ _ r).trans (Finset.sum_congr rfl fun q _ => ?_)
  simp only [mulf_apply, subf_apply, divf_apply, broadcastTo_a1_ab_apply]

theorem ld_w0 (x3 : Vec Ideal S384x128 .bf16) (k q : Fin 128) :
    View.ld x3 r0_1 (ix2 k q) = x3 (ix2 ⟨k.val, by omega⟩ q) :=
  ld_rows_apply x3 _ k q ⟨k.val, by omega⟩ (Nat.zero_add _).symm
theorem ld_w1 (x3 : Vec Ideal S384x128 .bf16) (k q : Fin 128) :
    View.ld x3 r0_2 (ix2 k q) = x3 (ix2 ⟨128 + k.val, by omega⟩ q) :=
  ld_rows_apply x3 _ k q ⟨128 + k.val, by omega⟩ rfl
theorem ld_w2 (x3 : Vec Ideal S384x128 .bf16) (k q : Fin 128) :
    View.ld x3 r0_3 (ix2 k q) = x3 (ix2 ⟨256 + k.val, by omega⟩ q) :=
  ld_rows_apply x3 _ k q ⟨256 + k.val, by omega⟩ rfl

theorem hz : (![0, 0] : Fin 2 → ℕ) = fun _ => 0 := funext fun a => by
  match a with | ⟨0, _⟩ => rfl | ⟨1, _⟩ => rfl

private theorem pay3_row (x0 x1 : Vec Ideal S4000x128 .bf16) (x2 : Vec Ideal S4000x128 .f32) (x3 : Vec Ideal S384x128 .bf16)
    (x4 : Vec Ideal S1x128 .f32) (x5 : Vec Ideal S128x128 .bf16) (x6 : Vec Ideal S1x128 .f32) (r : Fin 4000) (q : Fin 128) :
    k0_pay3 (F := Ideal) x0 x1 x2 (View.ld x3 r0_1) (View.ld x3 r0_2) (View.ld x3 r0_3) x4 x5 x6 (ix2 r q)
      = lin2 (fun k q => x5 (ix2 k q)) (fun q => x6 (ix2 0 q))
          (hid (fun k q => x3 (ix2 k q)) (fun q => x4 (ix2 0 q))
            (cat3 (fun k => x0 (ix2 r k)) (fun k => x1 (ix2 r k)) (fun k => x2 (ix2 r k)))) q := by
  rw [pay3_apply]
  unfold lin2 hid lin1
  refine congrArg (· + x6 (ix2 0 q)) (Finset.sum_congr rfl fun k _ => ?_)
  have h3 : ((∑ kk : Fin 128, x0 (ix2 r kk) * View.ld x3 r0_1 (ix2 kk k)) + ∑ kk : Fin 128, x1 (ix2 r kk) * View.ld x3 r0_2 (ix2 kk k))
        + ∑ kk : Fin 128, x2 (ix2 r kk) * View.ld x3 r0_3 (ix2 kk k)
      = ∑ k' : Fin 384, cat3 (fun k => x0 (ix2 r k)) (fun k => x1 (ix2 r k)) (fun k => x2 (ix2 r k)) k' * x3 (ix2 k' k) := by
    refine Eq.trans ?_ (sum_cat3 _ _ _ (fun k' => x3 (ix2 k' k))).symm
    refine congrArg₂ (· + ·) (congrArg₂ (· + ·) ?_ ?_) ?_
    · exact Finset.sum_congr rfl fun kk _ => congrArg (x0 (ix2 r kk) * ·) (ld_w0 x3 kk k)
    · exact Finset.sum_congr rfl fun kk _ => congrArg (x1 (ix2 r kk) * ·) (ld_w1 x3 kk k)
    · exact Finset.sum_congr rfl fun kk _ => congrArg (x2 (ix2 r kk) * ·) (ld_w2 x3 kk k)
  rw [h3]

theorem out0_10_apply (x0 x1 : Vec Ideal S4000x128 .bf16) (x2 : Vec Ideal S4000x128 .f32) (x3 : Vec Ideal S384x128 .bf16)
    (x4 : Vec Ideal S1x128 .f32) (x5 : Vec Ideal S128x128 .bf16) (x6 x7 x8 : Vec Ideal S1x128 .f32) (r : Fin 4000) (j : Fin 128) :
    out0_10 (F := Ideal) x0 x1 x2 x3 x4 x5 x6 x7 x8 (ix2 r j)
      = rowLN (fun k q => x3 (ix2 k q)) (fun q => x4 (ix2 0 q)) (fun k q => x5 (ix2 k q)) (fun q => x6 (ix2 0 q))
          (fun q => x7 (ix2 0 q)) (fun q => x8 (ix2 0 q))
          (cat3 (fun k => x0 (ix2 r k)) (fun k => x1 (ix2 r k)) (fun k => x2 (ix2 r k))) j := by
  unfold out0_10
  rw [View.canon_unit_zero hz]
  simp only [View.ld_unit_zero (S := S4000x128) hz, View.ld_unit_zero (S := S1x128) hz, View.ld_unit_zero (S := S128x128) hz]
  rw [pay1_apply, pay4_apply, pay5_apply]
  simp only [pay3_row]
  rfl

theorem out0_9_apply (x0 x1 : Vec Ideal S4000x128 .bf16) (x2 : Vec Ideal S4000x128 .f32) (x3 : Vec Ideal S384x128 .bf16)
    (x4 : Vec Ideal S1x128 .f32) (x5 : Vec Ideal S128x128 .bf16) (x6 x7 x8 : Vec Ideal S1x128 .f32) (r : Fin 4000) (j : Fin 128) :
    out0_9 (F := Ideal) x0 x1 x2 x3 x4 x5 x6 x7 x8 (ix2 r j)
      = rowLN (fun k q => x3 (ix2 k q)) (fun q => x4 (ix2 0 q)) (fun k q => x5 (ix2 k q)) (fun q => x6 (ix2 0 q))
          (fun q => x7 (ix2 0 q)) (fun q => x8 (ix2 0 q))
          (cat3 (fun k => x0 (ix2 r k)) (fun k => x1 (ix2 r k)) (fun k => x2 (ix2 r k))) j + x2 (ix2 r j) := by
  unfold out0_9
  rw [View.canon_unit_zero hz]
  simp only [View.ld_unit_zero (S := S4000x128) hz, View.ld_unit_zero (S := S1x128) hz, View.ld_unit_zero (S := S128x128) hz]
  unfold k0_pay2
  rw [addf_apply, pay1_apply, pay4_apply, pay5_apply]
  simp only [pay3_row]
  rfl

end Cert.KernelIdeal.Body

end
-- ==== Proof.Arr0.lean ====
import proofs.«408938_j13219909337176_3_alg».proof.Proof.PKernelIdealFrame
import proofs.«408938_j13219909337176_3_alg».proof.Proof.Gen.KernelIdeal.Points
import proofs.«408938_j13219909337176_3_alg».proof.Proof.BodyEdge0
import proofs.«408938_j13219909337176_3_alg».proof.Proof.Spec
import Idealize.ShloMosaic.Lib.Pipeline.Value
import Idealize.ShloMosaic.Lib.ValueIdx

noncomputable section

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.Body Cert.Spec

variable (V : (c : Dev nD) → (b : Ref sig .tc) → Buf (Elt Ideal) ((c : Thread nD τ).loc b))

def row0 (c : Dev nD) (i0 : Fin 400000) (j : Fin 128) : EReal :=
  rowLN (fun k q => V c main_v0 (ix2 k q)) (fun q => V c main_v1 (ix2 0 q)) (fun k q => V c main_v2 (ix2 k q))
    (fun q => V c main_v3 (ix2 0 q)) (fun q => V c main_v4 (ix2 0 q)) (fun q => V c main_v5 (ix2 0 q))
    (cat3 (fun k => V c main_v25 (ix2 i0 k)) (fun k => V c main_v32 (ix2 i0 k)) (fun k => V c main_arg3 (ix2 i0 k))) j

def G0_10 (c : Dev nD) : S400000x128.Idx → EReal := fun i => row0 V c (i 0) (i 1)

def G0_9 (c : Dev nD) : S400000x128.Idx → EReal := fun i => row0 V c (i 0) (i 1) + V c main_arg3 i

theorem N0 : cfg0.N = 100 := N_0

theorem idx_rows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem idx_params0 : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem blk0_0 (c : Dev nD) (t : Fin cfg0.N) (r : Fin 4000) (k : Fin 128) (i0 : Fin 400000)
    (h : i0.val = 4000 * t.val + r.val) :
    (iblk0 V c 0 t : Vec Ideal S4000x128 .bf16) (ix2 r k) = (V c main_v25 : Vec Ideal S400000x128 .bf16) (ix2 i0 k) := by
  obtain ⟨e0, e1, -⟩ := idx_rows0 t
  unfold iblk0
  rw [View.read_apply]
  show V c main_v25 _ = V c main_v25 _
  congr 1
  funext a
  apply Fin.ext
  match a with
  | ⟨0, _⟩ => show win0_0.index t (0 : Fin 2) * 4000 + 1 * r.val = i0.val; rw [e0, h]; omega
  | ⟨1, _⟩ => show win0_0.index t (1 : Fin 2) * 128 + 1 * k.val = k.val; rw [e1]; omega

theorem blk0_1 (c : Dev nD) (t : Fin cfg0.N) (r : Fin 4000) (k : Fin 128) (i0 : Fin 400000)
    (h : i0.val = 4000 * t.val + r.val) :
    (iblk0 V c 1 t : Vec Ideal S4000x128 .bf16) (ix2 r k) = (V c main_v32 : Vec Ideal S400000x128 .bf16) (ix2 i0 k) := by
  obtain ⟨-, -, e0, e1, -⟩ := idx_rows0 t
  unfold iblk0
  rw [View.read_apply]
  show V c main_v32 _ = V c main_v32 _
  congr 1
  funext a
  apply Fin.ext
  match a with
  | ⟨0, _⟩ => show win0_1.index t (0 : Fin 2) * 4000 + 1 * r.val = i0.val; rw [e0, h]; omega
  | ⟨1, _⟩ => show win0_1.index t (1 : Fin 2) * 128 + 1 * k.val = k.val; rw [e1]; omega

theorem blk0_2 (c : Dev nD) (t : Fin cfg0.N) (r : Fin 4000) (k : Fin 128) (i0 : Fin 400000)
    (h : i0.val = 4000 * t.val + r.val) :
    (iblk0 V c 2 t : Vec Ideal S4000x128 .f32) (ix2 r k) = (V c main_arg3 : Vec Ideal S400000x128 .f32) (ix2 i0 k) := by
  obtain ⟨-, -, -, -, e0, e1, -⟩ := idx_rows0 t
  unfold iblk0
  rw [View.read_apply]
  show V c main_arg3 _ = V c main_arg3 _
  congr 1
  funext a
  apply Fin.ext
  match a with
  | ⟨0, _⟩ => show win0_2.index t (0 : Fin 2) * 4000 + 1 * r.val = i0.val; rw [e0, h]; omega
  | ⟨1, _⟩ => show win0_2.index t (1 : Fin 2) * 128 + 1 * k.val = k.val; rw [e1]; omega

theorem blk0_3 (c : Dev nD) (t : Fin cfg0.N) (k : Fin 384) (q : Fin 128) :
    (iblk0 V c 3 t : Vec Ideal S384x128 .bf16) (ix2 k q) = (V c main_v0 : Vec Ideal S384x128 .bf16) (ix2 k q) := by
  obtain ⟨e0, e1, -⟩ := idx_params0 t
  unfold iblk0
  rw [View.read_apply]
  show V c main_v0 _ = V c main_v0 _
  congr 1
  funext a
  apply Fin.ext
  match a with
  | ⟨0, _⟩ => show win0_3.index t (0 : Fin 2) * 384 + 1 * k.val = k.val; rw [e0]; omega
  | ⟨1, _⟩ => show win0_3.index t (1 : Fin 2) * 128 + 1 * q.val = q.val; rw [e1]; omega

theorem blk0_4 (c : Dev nD) (t : Fin cfg0.N) (k : Fin 1) (q : Fin 128) :
    (iblk0 V c 4 t : Vec Ideal S1x128 .f32) (ix2 k q) = (V c main_v1 : Vec Ideal S1x128 .f32) (ix2 k q) := by
  obtain ⟨-, -, e0, e1, -⟩ := idx_params0 t
  unfold iblk0
  rw [View.read_apply]
  show V c main_v1 _ = V c main_v1 _
  congr 1
  funext a
  apply Fin.ext
  match a with
  | ⟨0, _⟩ => show win0_4.index t (0 : Fin 2) * 1 + 1 * k.val = k.val; rw [e0]; omega
  | ⟨1, _⟩ => show win0_4.index t (1 : Fin 2) * 128 + 1 * q.val = q.val; rw [e1]; omega

theorem blk0_5 (c : Dev nD) (t : Fin cfg0.N) (k : Fin 128) (q : Fin 128) :
    (iblk0 V c 5 t : Vec Ideal S128x128 .bf16) (ix2 k q) = (V c main_v2 : Vec Ideal S128x128 .bf16) (ix2 k q) := by
  obtain ⟨-, -, -, -, e0, e1, -⟩ := idx_params0 t
  unfold iblk0
  rw [View.read_apply]
  show V c main_v2 _ = V c main_v2 _
  congr 1
  funext a
  apply Fin.ext
  match a with
  | ⟨0, _⟩ => show win0_5.index t (0 : Fin 2) * 128 + 1 * k.val = k.val; rw [e0]; omega
  | ⟨1, _⟩ => show win0_5.index t (1 : Fin 2) * 128 + 1 * q.val = q.val; rw [e1]; omega

theorem blk0_6 (c : Dev nD) (t : Fin cfg0.N) (k : Fin 1) (q : Fin 128) :
    (iblk0 V c 6 t : Vec Ideal S1x128 .f32) (ix2 k q) = (V c main_v3 : Vec Ideal S1x128 .f32) (ix2 k q) := by
  obtain ⟨-, -, -, -, -, -, e0, e1, -⟩ := idx_params0 t
  unfold iblk0
  rw [View.read_apply]
  show V c main_v3 _ = V c main_v3 _
  congr 1
  funext a
  apply Fin.ext
  match a with
  | ⟨0, _⟩ => show win0_6.index t (0 : Fin 2) * 1 + 1 * k.val = k.val; rw [e0]; omega
  | ⟨1, _⟩ => show win0_6.index t (1 : Fin 2) * 128 + 1 * q.val = q.val; rw [e1]; omega

theorem blk0_7 (c : Dev nD) (t : Fin cfg0.N) (k : Fin 1) (q : Fin 128) :
    (iblk0 V c 7 t : Vec Ideal S1x128 .f32) (ix2 k q) = (V c main_v4 : Vec Ideal S1x128 .f32) (ix2 k q) := by
  obtain ⟨-, -, -, -, -, -, -, -, e0, e1, -⟩ := idx_params0 t
  unfold iblk0
  rw [View.read_apply]
  show V c main_v4 _ = V c main_v4 _
  congr 1
  funext a
  apply Fin.ext
  match a with
  | ⟨0, _⟩ => show win0_7.index t (0 : Fin 2) * 1 + 1 * k.val = k.val; rw [e0]; omega
  | ⟨1, _⟩ => show win0_7.index t (1 : Fin 2) * 128 + 1 * q.val = q.val; rw [e1]; omega

theorem blk0_8 (c : Dev nD) (t : Fin cfg0.N) (k : Fin 1) (q : Fin 128) :
    (iblk0 V c 8 t : Vec Ideal S1x128 .f32) (ix2 k q) = (V c main_v5 : Vec Ideal S1x128 .f32) (ix2 k q) := by
  obtain ⟨-, -, -, -, -, -, -, -, -, -, e0, e1⟩ := idx_params0 t
  unfold iblk0
  rw [View.read_apply]
  show V c main_v5 _ = V c main_v5 _
  congr 1
  funext a
  apply Fin.ext
  match a with
  | ⟨0, _⟩ => show win0_8.index t (0 : Fin 2) * 1 + 1 * k.val = k.val; rw [e0]; omega
  | ⟨1, _⟩ => show win0_8.index t (1 : Fin 2) * 128 + 1 * q.val = q.val; rw [e1]; omega

theorem row_blocks0 (c : Dev nD) (t : Fin cfg0.N) (r : Fin 4000) (j : Fin 128) (i0 : Fin 400000)
    (h : i0.val = 4000 * t.val + r.val) :
    rowLN (fun k q => (iblk0 V c 3 t : Vec Ideal S384x128 .bf16) (ix2 k q))
        (fun q => (iblk0 V c 4 t : Vec Ideal S1x128 .f32) (ix2 0 q))
        (fun k q => (iblk0 V c 5 t : Vec Ideal S128x128 .bf16) (ix2 k q))
        (fun q => (iblk0 V c 6 t : Vec Ideal S1x128 .f32) (ix2 0 q))
        (fun q => (iblk0 V c 7 t : Vec Ideal S1x128 .f32) (ix2 0 q))
        (fun q => (iblk0 V c 8 t : Vec Ideal S1x128 .f32) (ix2 0 q))
        (cat3 (fun k => (iblk0 V c 0 t : Vec Ideal S4000x128 .bf16) (ix2 r k))
          (fun k => (iblk0 V c 1 t : Vec Ideal S4000x128 .bf16) (ix2 r k))
          (fun k => (iblk0 V c 2 t : Vec Ideal S4000x128 .f32) (ix2 r k))) j
      = row0 V c i0 j := by
  unfold row0
  exact rowLN_congr j (fun k q => blk0_3 V c t k q) (fun q => blk0_4 V c t 0 q) (fun k q => blk0_5 V c t k q)
    (fun q => blk0_6 V c t 0 q) (fun q => blk0_7 V c t 0 q) (fun q => blk0_8 V c t 0 q)
    (cat3_congr (fun k => blk0_0 V c t r k i0 h) (fun k => blk0_1 V c t r k i0 h) (fun k => blk0_2 V c t r k i0 h))

theorem point0_10 (c : Dev nD) (t : Fin cfg0.N) (r : Fin 4000) (j : Fin 128) (i0 : Fin 400000)
    (h : i0.val = 4000 * t.val + r.val) :
    out0_10 (F := Ideal) (iblk0 V c 0 t) (iblk0 V c 1 t) (iblk0 V c 2 t) (iblk0 V c 3 t) (iblk0 V c 4 t)
        (iblk0 V c 5 t) (iblk0 V c 6 t) (iblk0 V c 7 t) (iblk0 V c 8 t) (ix2 r j)
      = row0 V c i0 j :=
  (out0_10_apply (iblk0 V c 0 t) (iblk0 V c 1 t) (iblk0 V c 2 t) (iblk0 V c 3 t) (iblk0 V c 4 t)
    (iblk0 V c 5 t) (iblk0 V c 6 t) (iblk0 V c 7 t) (iblk0 V c 8 t) r j).trans (row_blocks0 V c t r j i0 h)

theorem point0_9 (c : Dev nD) (t : Fin cfg0.N) (r : Fin 4000) (j : Fin 128) (i0 : Fin 400000)
    (h : i0.val = 4000 * t.val + r.val) :
    out0_9 (F := Ideal) (iblk0 V c 0 t) (iblk0 V c 1 t) (iblk0 V c 2 t) (iblk0 V c 3 t) (iblk0 V c 4 t)
        (iblk0 V c 5 t) (iblk0 V c 6 t) (iblk0 V c 7 t) (iblk0 V c 8 t) (ix2 r j)
      = row0 V c i0 j + (V c main_arg3 : Vec Ideal S400000x128 .f32) (ix2 i0 j) :=
  (out0_9_apply (iblk0 V c 0 t) (iblk0 V c 1 t) (iblk0 V c 2 t) (iblk0 V c 3 t) (iblk0 V c 4 t)
    (iblk0 V c 5 t) (iblk0 V c 6 t) (iblk0 V c 7 t) (iblk0 V c 8 t) r j).trans
    (congr (congrArg HAdd.hAdd (row_blocks0 V c t r j i0 h)) (blk0_2 V c t r j i0 h))

theorem flushed0_10_eq (c : Dev nD) (t : Fin cfg0.N) :
    (dat0 (F := Ideal) V c).flushed 10 t = ((cfg0.win 10).blk t).view.read (Elt Ideal) (G0_10 V c) := by
  show (cfg0.win 10).cut (grid0.coords t) ((dat0 (F := Ideal) V c).after 10 t) = _
  rw [after0_10]
  obtain ⟨-, -, -, -, -, -, -, -, e0, e1⟩ := idx_rows0 t
  have hN : t.val < 100 := lt_of_lt_of_eq t.isLt N0
  funext y
  have hy0 : (y 0).val < 4000 := (y 0).isLt
  have hy1 : (y 1).val < 128 := (y 1).isLt
  have hx : (cfg0.win 10).xinj (grid0.coords t) y = ix2 (⟨(y 0).val, hy0⟩ : Fin 4000) (⟨(y 1).val, hy1⟩ : Fin 128) := by
    funext a
    match a with
    | ⟨0, _⟩ => rfl
    | ⟨1, _⟩ => rfl
  have he : ((cfg0.win 10).blk t).view.emb y
      = ix2 (⟨4000 * t.val + (y 0).val, by omega⟩ : Fin 400000) (⟨(y 1).val, hy1⟩ : Fin 128) := by
    funext a
    apply Fin.ext
    match a with
    | ⟨0, _⟩ => show win0_10.index t (0 : Fin 2) * 4000 + 1 * (y 0).val = 4000 * t.val + (y 0).val; rw [e0]; omega
    | ⟨1, _⟩ => show win0_10.index t (1 : Fin 2) * 128 + 1 * (y 1).val = (y 1).val; rw [e1]; omega
  show out0_10 (F := Ideal) (iblk0 V c 0 t) (iblk0 V c 1 t) (iblk0 V c 2 t) (iblk0 V c 3 t) (iblk0 V c 4 t)
      (iblk0 V c 5 t) (iblk0 V c 6 t) (iblk0 V c 7 t) (iblk0 V c 8 t) ((cfg0.win 10).xinj (grid0.coords t) y)
    = G0_10 V c (((cfg0.win 10).blk t).view.emb y)
  rw [hx, he]
  exact point0_10 V c t _ _ _ rfl

theorem flushed0_9_eq (c : Dev nD) (t : Fin cfg0.N) :
    (dat0 (F := Ideal) V c).flushed 9 t = ((cfg0.win 9).blk t).view.read (Elt Ideal) (G0_9 V c) := by
  show (cfg0.win 9).cut (grid0.coords t) ((dat0 (F := Ideal) V c).after 9 t) = _
  rw [after0_9]
  obtain ⟨-, -, -, -, -, -, e0, e1, -⟩ := idx_rows0 t
  have hN : t.val < 100 := lt_of_lt_of_eq t.isLt N0
  funext y
  have hy0 : (y 0).val < 4000 := (y 0).isLt
  have hy1 : (y 1).val < 128 := (y 1).isLt
  have hx : (cfg0.win 9).xinj (grid0.coords t) y = ix2 (⟨(y 0).val, hy0⟩ : Fin 4000) (⟨(y 1).val, hy1⟩ : Fin 128) := by
    funext a
    match a with
    | ⟨0, _⟩ => rfl
    | ⟨1, _⟩ => rfl
  have he : ((cfg0.win 9).blk t).view.emb y
      = ix2 (⟨4000 * t.val + (y 0).val, by omega⟩ : Fin 400000) (⟨(y 1).val, hy1⟩ : Fin 128) := by
    funext a
    apply Fin.ext
    match a with
    | ⟨0, _⟩ => show win0_9.index t (0 : Fin 2) * 4000 + 1 * (y 0).val = 4000 * t.val + (y 0).val; rw [e0]; omega
    | ⟨1, _⟩ => show win0_9.index t (1 : Fin 2) * 128 + 1 * (y 1).val = (y 1).val; rw [e1]; omega
  show out0_9 (F := Ideal) (iblk0 V c 0 t) (iblk0 V c 1 t) (iblk0 V c 2 t) (iblk0 V c 3 t) (iblk0 V c 4 t)
      (iblk0 V c 5 t) (iblk0 V c 6 t) (iblk0 V c 7 t) (iblk0 V c 8 t) ((cfg0.win 9).xinj (grid0.coords t) y)
    = G0_9 V c (((cfg0.win 9).blk t).view.emb y)
  rw [hx, he]
  exact point0_9 V c t _ _ _ rfl

theorem mem_blk0_10 (t : Fin cfg0.N) (i : S400000x128.Idx) :
    i ∈ ((cfg0.win 10).blk t).view.set ↔ ∀ a : Fin 2, win0_10.index t a * S4000x128.size a ≤ (i a).val
      ∧ (i a).val < win0_10.index t a * S4000x128.size a + S4000x128.size a := by
  show i ∈ ((View.whole main_v33_1).slice (win0_10.rect t)).set ↔ _
  rw [View.set_slice_whole, Rect.mem_set_unit]
  exact Iff.rfl

theorem mem_blk0_9 (t : Fin cfg0.N) (i : S400000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v33_0).slice (win0_9.rect t)).set ↔ _
  rw [View.set_slice_whole, Rect.mem_set_unit]
  exact Iff.rfl

theorem covered0_10 (i : S400000x128.Idx) :
    ∃ t : Fin cfg0.N, (cfg0.win 10).flush t = true ∧ i ∈ ((cfg0.win 10).blk t).view.set := by
  have hi0 : (i 0).val < 400000 := (i 0).isLt
  have hi1 : (i 1).val < 128 := (i 1).isLt
  obtain ⟨t, ht⟩ : ∃ t : Fin cfg0.N, t.val = (i 0).val / 4000 :=
    ⟨⟨(i 0).val / 4000, lt_of_lt_of_eq (by omega : (i 0).val / 4000 < 100) N0.symm⟩, rfl⟩
  obtain ⟨-, -, -, -, -, -, -, -, e0, e1⟩ := idx_rows0 t
  refine ⟨t, flush0_10 t, ?_⟩
  rw [mem_blk0_10]
  intro a
  match a with
  | ⟨0, _⟩ =>
    show win0_10.index t (0 : Fin 2) * 4000 ≤ (i 0).val ∧ (i 0).val < win0_10.index t (0 : Fin 2) * 4000 + 4000
    rw [e0, ht]; omega
  | ⟨1, _⟩ =>
    show win0_10.index t (1 : Fin 2) * 128 ≤ (i 1).val ∧ (i 1).val < win0_10.index t (1 : Fin 2) * 128 + 128
    rw [e1]; omega

theorem covered0_9 (i : S400000x128.Idx) :
    ∃ t : Fin cfg0.N, (cfg0.win 9).flush t = true ∧ i ∈ ((cfg0.win 9).blk t).view.set := by
  have hi0 : (i 0).val < 400000 := (i 0).isLt
  have hi1 : (i 1).val < 128 := (i 1).isLt
  obtain ⟨t, ht⟩ : ∃ t : Fin cfg0.N, t.val = (i 0).val / 4000 :=
    ⟨⟨(i 0).val / 4000, lt_of_lt_of_eq (by omega : (i 0).val / 4000 < 100) N0.symm⟩, rfl⟩
  obtain ⟨-, -, -, -, -, -, e0, e1, -⟩ := idx_rows0 t
  refine ⟨t, flush0_9 t, ?_⟩
  rw [mem_blk0_9]
  intro a
  match a with
  | ⟨0, _⟩ =>
    show win0_9.index t (0 : Fin 2) * 4000 ≤ (i 0).val ∧ (i 0).val < win0_9.index t (0 : Fin 2) * 4000 + 4000
    rw [e0, ht]; omega
  | ⟨1, _⟩ =>
    show win0_9.index t (1 : Fin 2) * 128 ≤ (i 1).val ∧ (i 1).val < win0_9.index t (1 : Fin 2) * 128 + 128
    rw [e1]; omega

theorem arr0_10 (c : Dev nD) (i : S400000x128.Idx) :
    (dat0 (F := Ideal) V c).arrAt 10 cfg0.N i
      = rowLN (fun k q => V c main_v0 (ix2 k q)) (fun q => V c main_v1 (ix2 0 q)) (fun k q => V c main_v2 (ix2 k q))
          (fun q => V c main_v3 (ix2 0 q)) (fun q => V c main_v4 (ix2 0 q)) (fun q => V c main_v5 (ix2 0 q))
          (cat3 (fun k => V c main_v25 (ix2 (i 0) k)) (fun k => V c main_v32 (ix2 (i 0) k))
            (fun k => V c main_arg3 (ix2 (i 0) k))) (i 1) :=
  congrFun ((dat0 (F := Ideal) V c).arrAt_eq_of_cover 10 (G0_10 V c) (fun t _ => flushed0_10_eq V c t) covered0_10) i

theorem arr0_9 (c : Dev nD) (i : S400000x128.Idx) :
    (dat0 (F := Ideal) V c).arrAt 9 cfg0.N i
      = rowLN (fun k q => V c main_v0 (ix2 k q)) (fun q => V c main_v1 (ix2 0 q)) (fun k q => V c main_v2 (ix2 k q))
          (fun q => V c main_v3 (ix2 0 q)) (fun q => V c main_v4 (ix2 0 q)) (fun q => V c main_v5 (ix2 0 q))
          (cat3 (fun k => V c main_v25 (ix2 (i 0) k)) (fun k => V c main_v32 (ix2 (i 0) k))
            (fun k => V c main_arg3 (ix2 (i 0) k))) (i 1) + V c main_arg3 i :=
  congrFun ((dat0 (F := Ideal) V c).arrAt_eq_of_cover 9 (G0_9 V c) (fun t _ => flushed0_9_eq V c t) covered0_9) i

end Cert.KernelIdeal.Arr

end
-- ==== Proof.BodyEdge1.lean ====
import proofs.«408938_j13219909337176_3_alg».proof.Proof.BodyEdge0

noncomputable section

namespace Cert.KernelIdeal.Body

open Idealize.ShloMosaic Idealize.ShloMosaic.ValueIdx Cert.KernelIdeal Cert.KernelIdeal.Gen Cert.KernelIdeal.GenP Cert.Spec

variable [Cert.KernelIdeal.Facts]

/-- The second edge kernel's body is the first's, operation for operation: the same lemma serves it. -/
theorem out1_10_apply (x0 x1 : Vec Ideal S4000x128 .bf16) (x2 : Vec Ideal S4000x128 .f32) (x3 : Vec Ideal S384x128 .bf16)
    (x4 : Vec Ideal S1x128 .f32) (x5 : Vec Ideal S128x128 .bf16) (x6 x7 x8 : Vec Ideal S1x128 .f32) (r : Fin 4000) (j : Fin 128) :
    out1_10 (F := Ideal) x0 x1 x2 x3 x4 x5 x6 x7 x8 (ix2 r j)
      = rowLN (fun k q => x3 (ix2 k q)) (fun q => x4 (ix2 0 q)) (fun k q => x5 (ix2 k q)) (fun q => x6 (ix2 0 q))
          (fun q => x7 (ix2 0 q)) (fun q => x8 (ix2 0 q))
          (cat3 (fun k => x0 (ix2 r k)) (fun k => x1 (ix2 r k)) (fun k => x2 (ix2 r k))) j :=
  out0_10_apply x0 x1 x2 x3 x4 x5 x6 x7 x8 r j

theorem out1_9_apply (x0 x1 : Vec Ideal S4000x128 .bf16) (x2 : Vec Ideal S4000x128 .f32) (x3 : Vec Ideal S384x128 .bf16)
    (x4 : Vec Ideal S1x128 .f32) (x5 : Vec Ideal S128x128 .bf16) (x6 x7 x8 : Vec Ideal S1x128 .f32) (r : Fin 4000) (j : Fin 128) :
    out1_9 (F := Ideal) x0 x1 x2 x3 x4 x5 x6 x7 x8 (ix2 r j)
      = rowLN (fun k q => x3 (ix2 k q)) (fun q => x4 (ix2 0 q)) (fun k q => x5 (ix2 k q)) (fun q => x6 (ix2 0 q))
          (fun q => x7 (ix2 0 q)) (fun q => x8 (ix2 0 q))
          (cat3 (fun k => x0 (ix2 r k)) (fun k => x1 (ix2 r k)) (fun k => x2 (ix2 r k))) j + x2 (ix2 r j) :=
  out0_9_apply x0 x1 x2 x3 x4 x5 x6 x7 x8 r j

end Cert.KernelIdeal.Body

end
-- ==== Proof.Arr1.lean ====
import proofs.«408938_j13219909337176_3_alg».proof.Proof.PKernelIdealFrame
import proofs.«408938_j13219909337176_3_alg».proof.Proof.Gen.KernelIdeal.Points
import proofs.«408938_j13219909337176_3_alg».proof.Proof.BodyEdge1
import proofs.«408938_j13219909337176_3_alg».proof.Proof.Spec
import Idealize.ShloMosaic.Lib.Pipeline.Value
import Idealize.ShloMosaic.Lib.ValueIdx

noncomputable section

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.Body Cert.Spec

variable (V : (c : Dev nD) → (b : Ref sig .tc) → Buf (Elt Ideal) ((c : Thread nD τ).loc b))

def row1 (c : Dev nD) (i0 : Fin 200000) (j : Fin 128) : EReal :=
  rowLN (fun k q => V c main_v6 (ix2 k q)) (fun q => V c main_v7 (ix2 0 q)) (fun k q => V c main_v8 (ix2 k q))
    (fun q => V c main_v9 (ix2 0 q)) (fun q => V c main_v10 (ix2 0 q)) (fun q => V c main_v11 (ix2 0 q))
    (cat3 (fun k => V c main_v40 (ix2 i0 k)) (fun k => V c main_v47 (ix2 i0 k)) (fun k => V c main_arg6 (ix2 i0 k))) j

def G1_10 (c : Dev nD) : S200000x128.Idx → EReal := fun i => row1 V c (i 0) (i 1)

def G1_9 (c : Dev nD) : S200000x128.Idx → EReal := fun i => row1 V c (i 0) (i 1) + V c main_arg6 i

theorem N1 : cfg1.N = 50 := N_1

theorem idx_rows1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

theorem idx_params1 : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem blk1_0 (c : Dev nD) (t : Fin cfg1.N) (r : Fin 4000) (k : Fin 128) (i0 : Fin 200000)
    (h : i0.val = 4000 * t.val + r.val) :
    (iblk1 V c 0 t : Vec Ideal S4000x128 .bf16) (ix2 r k) = (V c main_v40 : Vec Ideal S200000x128 .bf16) (ix2 i0 k) := by
  obtain ⟨e0, e1, -⟩ := idx_rows1 t
  unfold iblk1
  rw [View.read_apply]
  show V c main_v40 _ = V c main_v40 _
  congr 1
  funext a
  apply Fin.ext
  match a with
  | ⟨0, _⟩ => show win1_0.index t (0 : Fin 2) * 4000 + 1 * r.val = i0.val; rw [e0, h]; omega
  | ⟨1, _⟩ => show win1_0.index t (1 : Fin 2) * 128 + 1 * k.val = k.val; rw [e1]; omega

theorem blk1_1 (c : Dev nD) (t : Fin cfg1.N) (r : Fin 4000) (k : Fin 128) (i0 : Fin 200000)
    (h : i0.val = 4000 * t.val + r.val) :
    (iblk1 V c 1 t : Vec Ideal S4000x128 .bf16) (ix2 r k) = (V c main_v47 : Vec Ideal S200000x128 .bf16) (ix2 i0 k) := by
  obtain ⟨-, -, e0, e1, -⟩ := idx_rows1 t
  unfold iblk1
  rw [View.read_apply]
  show V c main_v47 _ = V c main_v47 _
  congr 1
  funext a
  apply Fin.ext
  match a with
  | ⟨0, _⟩ => show win1_1.index t (0 : Fin 2) * 4000 + 1 * r.val = i0.val; rw [e0, h]; omega
  | ⟨1, _⟩ => show win1_1.index t (1 : Fin 2) * 128 + 1 * k.val = k.val; rw [e1]; omega

theorem blk1_2 (c : Dev nD) (t : Fin cfg1.N) (r : Fin 4000) (k : Fin 128) (i0 : Fin 200000)
    (h : i0.val = 4000 * t.val + r.val) :
    (iblk1 V c 2 t : Vec Ideal S4000x128 .f32) (ix2 r k) = (V c main_arg6 : Vec Ideal S200000x128 .f32) (ix2 i0 k) := by
  obtain ⟨-, -, -, -, e0, e1, -⟩ := idx_rows1 t
  unfold iblk1
  rw [View.read_apply]
  show V c main_arg6 _ = V c main_arg6 _
  congr 1
  funext a
  apply Fin.ext
  match a with
  | ⟨0, _⟩ => show win1_2.index t (0 : Fin 2) * 4000 + 1 * r.val = i0.val; rw [e0, h]; omega
  | ⟨1, _⟩ => show win1_2.index t (1 : Fin 2) * 128 + 1 * k.val = k.val; rw [e1]; omega

theorem blk1_3 (c : Dev nD) (t : Fin cfg1.N) (k : Fin 384) (q : Fin 128) :
    (iblk1 V c 3 t : Vec Ideal S384x128 .bf16) (ix2 k q) = (V c main_v6 : Vec Ideal S384x128 .bf16) (ix2 k q) := by
  obtain ⟨e0, e1, -⟩ := idx_params1 t
  unfold iblk1
  rw [View.read_apply]
  show V c main_v6 _ = V c main_v6 _
  congr 1
  funext a
  apply Fin.ext
  match a with
  | ⟨0, _⟩ => show win1_3.index t (0 : Fin 2) * 384 + 1 * k.val = k.val; rw [e0]; omega
  | ⟨1, _⟩ => show win1_3.index t (1 : Fin 2) * 128 + 1 * q.val = q.val; rw [e1]; omega

theorem blk1_4 (c : Dev nD) (t : Fin cfg1.N) (k : Fin 1) (q : Fin 128) :
    (iblk1 V c 4 t : Vec Ideal S1x128 .f32) (ix2 k q) = (V c main_v7 : Vec Ideal S1x128 .f32) (ix2 k q) := by
  obtain ⟨-, -, e0, e1, -⟩ := idx_params1 t
  unfold iblk1
  rw [View.read_apply]
  show V c main_v7 _ = V c main_v7 _
  congr 1
  funext a
  apply Fin.ext
  match a with
  | ⟨0, _⟩ => show win1_4.index t (0 : Fin 2) * 1 + 1 * k.val = k.val; rw [e0]; omega
  | ⟨1, _⟩ => show win1_4.index t (1 : Fin 2) * 128 + 1 * q.val = q.val; rw [e1]; omega

theorem blk1_5 (c : Dev nD) (t : Fin cfg1.N) (k : Fin 128) (q : Fin 128) :
    (iblk1 V c 5 t : Vec Ideal S128x128 .bf16) (ix2 k q) = (V c main_v8 : Vec Ideal S128x128 .bf16) (ix2 k q) := by
  obtain ⟨-, -, -, -, e0, e1, -⟩ := idx_params1 t
  unfold iblk1
  rw [View.read_apply]
  show V c main_v8 _ = V c main_v8 _
  congr 1
  funext a
  apply Fin.ext
  match a with
  | ⟨0, _⟩ => show win1_5.index t (0 : Fin 2) * 128 + 1 * k.val = k.val; rw [e0]; omega
  | ⟨1, _⟩ => show win1_5.index t (1 : Fin 2) * 128 + 1 * q.val = q.val; rw [e1]; omega

theorem blk1_6 (c : Dev nD) (t : Fin cfg1.N) (k : Fin 1) (q : Fin 128) :
    (iblk1 V c 6 t : Vec Ideal S1x128 .f32) (ix2 k q) = (V c main_v9 : Vec Ideal S1x128 .f32) (ix2 k q) := by
  obtain ⟨-, -, -, -, -, -, e0, e1, -⟩ := idx_params1 t
  unfold iblk1
  rw [View.read_apply]
  show V c main_v9 _ = V c main_v9 _
  congr 1
  funext a
  apply Fin.ext
  match a with
  | ⟨0, _⟩ => show win1_6.index t (0 : Fin 2) * 1 + 1 * k.val = k.val; rw [e0]; omega
  | ⟨1, _⟩ => show win1_6.index t (1 : Fin 2) * 128 + 1 * q.val = q.val; rw [e1]; omega

theorem blk1_7 (c : Dev nD) (t : Fin cfg1.N) (k : Fin 1) (q : Fin 128) :
    (iblk1 V c 7 t : Vec Ideal S1x128 .f32) (ix2 k q) = (V c main_v10 : Vec Ideal S1x128 .f32) (ix2 k q) := by
  obtain ⟨-, -, -, -, -, -, -, -, e0, e1, -⟩ := idx_params1 t
  unfold iblk1
  rw [View.read_apply]
  show V c main_v10 _ = V c main_v10 _
  congr 1
  funext a
  apply Fin.ext
  match a with
  | ⟨0, _⟩ => show win1_7.index t (0 : Fin 2) * 1 + 1 * k.val = k.val; rw [e0]; omega
  | ⟨1, _⟩ => show win1_7.index t (1 : Fin 2) * 128 + 1 * q.val = q.val; rw [e1]; omega

theorem blk1_8 (c : Dev nD) (t : Fin cfg1.N) (k : Fin 1) (q : Fin 128) :
    (iblk1 V c 8 t : Vec Ideal S1x128 .f32) (ix2 k q) = (V c main_v11 : Vec Ideal S1x128 .f32) (ix2 k q) := by
  obtain ⟨-, -, -, -, -, -, -, -, -, -, e0, e1⟩ := idx_params1 t
  unfold iblk1
  rw [View.read_apply]
  show V c main_v11 _ = V c main_v11 _
  congr 1
  funext a
  apply Fin.ext
  match a with
  | ⟨0, _⟩ => show win1_8.index t (0 : Fin 2) * 1 + 1 * k.val = k.val; rw [e0]; omega
  | ⟨1, _⟩ => show win1_8.index t (1 : Fin 2) * 128 + 1 * q.val = q.val; rw [e1]; omega

theorem row_blocks1 (c : Dev nD) (t : Fin cfg1.N) (r : Fin 4000) (j : Fin 128) (i0 : Fin 200000)
    (h : i0.val = 4000 * t.val + r.val) :
    rowLN (fun k q => (iblk1 V c 3 t : Vec Ideal S384x128 .bf16) (ix2 k q))
        (fun q => (iblk1 V c 4 t : Vec Ideal S1x128 .f32) (ix2 0 q))
        (fun k q => (iblk1 V c 5 t : Vec Ideal S128x128 .bf16) (ix2 k q))
        (fun q => (iblk1 V c 6 t : Vec Ideal S1x128 .f32) (ix2 0 q))
        (fun q => (iblk1 V c 7 t : Vec Ideal S1x128 .f32) (ix2 0 q))
        (fun q => (iblk1 V c 8 t : Vec Ideal S1x128 .f32) (ix2 0 q))
        (cat3 (fun k => (iblk1 V c 0 t : Vec Ideal S4000x128 .bf16) (ix2 r k))
          (fun k => (iblk1 V c 1 t : Vec Ideal S4000x128 .bf16) (ix2 r k))
          (fun k => (iblk1 V c 2 t : Vec Ideal S4000x128 .f32) (ix2 r k))) j
      = row1 V c i0 j := by
  unfold row1
  exact rowLN_congr j (fun k q => blk1_3 V c t k q) (fun q => blk1_4 V c t 0 q) (fun k q => blk1_5 V c t k q)
    (fun q => blk1_6 V c t 0 q) (fun q => blk1_7 V c t 0 q) (fun q => blk1_8 V c t 0 q)
    (cat3_congr (fun k => blk1_0 V c t r k i0 h) (fun k => blk1_1 V c t r k i0 h) (fun k => blk1_2 V c t r k i0 h))

theorem point1_10 (c : Dev nD) (t : Fin cfg1.N) (r : Fin 4000) (j : Fin 128) (i0 : Fin 200000)
    (h : i0.val = 4000 * t.val + r.val) :
    out1_10 (F := Ideal) (iblk1 V c 0 t) (iblk1 V c 1 t) (iblk1 V c 2 t) (iblk1 V c 3 t) (iblk1 V c 4 t)
        (iblk1 V c 5 t) (iblk1 V c 6 t) (iblk1 V c 7 t) (iblk1 V c 8 t) (ix2 r j)
      = row1 V c i0 j :=
  (out1_10_apply (iblk1 V c 0 t) (iblk1 V c 1 t) (iblk1 V c 2 t) (iblk1 V c 3 t) (iblk1 V c 4 t)
    (iblk1 V c 5 t) (iblk1 V c 6 t) (iblk1 V c 7 t) (iblk1 V c 8 t) r j).trans (row_blocks1 V c t r j i0 h)

theorem point1_9 (c : Dev nD) (t : Fin cfg1.N) (r : Fin 4000) (j : Fin 128) (i0 : Fin 200000)
    (h : i0.val = 4000 * t.val + r.val) :
    out1_9 (F := Ideal) (iblk1 V c 0 t) (iblk1 V c 1 t) (iblk1 V c 2 t) (iblk1 V c 3 t) (iblk1 V c 4 t)
        (iblk1 V c 5 t) (iblk1 V c 6 t) (iblk1 V c 7 t) (iblk1 V c 8 t) (ix2 r j)
      = row1 V c i0 j + (V c main_arg6 : Vec Ideal S200000x128 .f32) (ix2 i0 j) :=
  (out1_9_apply (iblk1 V c 0 t) (iblk1 V c 1 t) (iblk1 V c 2 t) (iblk1 V c 3 t) (iblk1 V c 4 t)
    (iblk1 V c 5 t) (iblk1 V c 6 t) (iblk1 V c 7 t) (iblk1 V c 8 t) r j).trans
    (congr (congrArg HAdd.hAdd (row_blocks1 V c t r j i0 h)) (blk1_2 V c t r j i0 h))

theorem flushed1_10_eq (c : Dev nD) (t : Fin cfg1.N) :
    (dat1 (F := Ideal) V c).flushed 10 t = ((cfg1.win 10).blk t).view.read (Elt Ideal) (G1_10 V c) := by
  show (cfg1.win 10).cut (grid1.coords t) ((dat1 (F := Ideal) V c).after 10 t) = _
  rw [after1_10]
  obtain ⟨-, -, -, -, -, -, -, -, e0, e1⟩ := idx_rows1 t
  have hN : t.val < 50 := lt_of_lt_of_eq t.isLt N1
  funext y
  have hy0 : (y 0).val < 4000 := (y 0).isLt
  have hy1 : (y 1).val < 128 := (y 1).isLt
  have hx : (cfg1.win 10).xinj (grid1.coords t) y = ix2 (⟨(y 0).val, hy0⟩ : Fin 4000) (⟨(y 1).val, hy1⟩ : Fin 128) := by
    funext a
    match a with
    | ⟨0, _⟩ => rfl
    | ⟨1, _⟩ => rfl
  have he : ((cfg1.win 10).blk t).view.emb y
      = ix2 (⟨4000 * t.val + (y 0).val, by omega⟩ : Fin 200000) (⟨(y 1).val, hy1⟩ : Fin 128) := by
    funext a
    apply Fin.ext
    match a with
    | ⟨0, _⟩ => show win1_10.index t (0 : Fin 2) * 4000 + 1 * (y 0).val = 4000 * t.val + (y 0).val; rw [e0]; omega
    | ⟨1, _⟩ => show win1_10.index t (1 : Fin 2) * 128 + 1 * (y 1).val = (y 1).val; rw [e1]; omega
  show out1_10 (F := Ideal) (iblk1 V c 0 t) (iblk1 V c 1 t) (iblk1 V c 2 t) (iblk1 V c 3 t) (iblk1 V c 4 t)
      (iblk1 V c 5 t) (iblk1 V c 6 t) (iblk1 V c 7 t) (iblk1 V c 8 t) ((cfg1.win 10).xinj (grid1.coords t) y)
    = G1_10 V c (((cfg1.win 10).blk t).view.emb y)
  rw [hx, he]
  exact point1_10 V c t _ _ _ rfl

theorem flushed1_9_eq (c : Dev nD) (t : Fin cfg1.N) :
    (dat1 (F := Ideal) V c).flushed 9 t = ((cfg1.win 9).blk t).view.read (Elt Ideal) (G1_9 V c) := by
  show (cfg1.win 9).cut (grid1.coords t) ((dat1 (F := Ideal) V c).after 9 t) = _
  rw [after1_9]
  obtain ⟨-, -, -, -, -, -, e0, e1, -⟩ := idx_rows1 t
  have hN : t.val < 50 := lt_of_lt_of_eq t.isLt N1
  funext y
  have hy0 : (y 0).val < 4000 := (y 0).isLt
  have hy1 : (y 1).val < 128 := (y 1).isLt
  have hx : (cfg1.win 9).xinj (grid1.coords t) y = ix2 (⟨(y 0).val, hy0⟩ : Fin 4000) (⟨(y 1).val, hy1⟩ : Fin 128) := by
    funext a
    match a with
    | ⟨0, _⟩ => rfl
    | ⟨1, _⟩ => rfl
  have he : ((cfg1.win 9).blk t).view.emb y
      = ix2 (⟨4000 * t.val + (y 0).val, by omega⟩ : Fin 200000) (⟨(y 1).val, hy1⟩ : Fin 128) := by
    funext a
    apply Fin.ext
    match a with
    | ⟨0, _⟩ => show win1_9.index t (0 : Fin 2) * 4000 + 1 * (y 0).val = 4000 * t.val + (y 0).val; rw [e0]; omega
    | ⟨1, _⟩ => show win1_9.index t (1 : Fin 2) * 128 + 1 * (y 1).val = (y 1).val; rw [e1]; omega
  show out1_9 (F := Ideal) (iblk1 V c 0 t) (iblk1 V c 1 t) (iblk1 V c 2 t) (iblk1 V c 3 t) (iblk1 V c 4 t)
      (iblk1 V c 5 t) (iblk1 V c 6 t) (iblk1 V c 7 t) (iblk1 V c 8 t) ((cfg1.win 9).xinj (grid1.coords t) y)
    = G1_9 V c (((cfg1.win 9).blk t).view.emb y)
  rw [hx, he]
  exact point1_9 V c t _ _ _ rfl

theorem mem_blk1_10 (t : Fin cfg1.N) (i : S200000x128.Idx) :
    i ∈ ((cfg1.win 10).blk t).view.set ↔ ∀ a : Fin 2, win1_10.index t a * S4000x128.size a ≤ (i a).val
      ∧ (i a).val < win1_10.index t a * S4000x128.size a + S4000x128.size a := by
  show i ∈ ((View.whole main_v48_1).slice (win1_10.rect t)).set ↔ _
  rw [View.set_slice_whole, Rect.mem_set_unit]
  exact Iff.rfl

theorem mem_blk1_9 (t : Fin cfg1.N) (i : S200000x128.Idx) :
    i ∈ ((cfg1.win 9).blk t).view.set ↔ ∀ a : Fin 2, win1_9.index t a * S4000x128.size a ≤ (i a).val
      ∧ (i a).val < win1_9.index t a * S4000x128.size a + S4000x128.size a := by
  show i ∈ ((View.whole main_v48_0).slice (win1_9.rect t)).set ↔ _
  rw [View.set_slice_whole, Rect.mem_set_unit]
  exact Iff.rfl

theorem covered1_10 (i : S200000x128.Idx) :
    ∃ t : Fin cfg1.N, (cfg1.win 10).flush t = true ∧ i ∈ ((cfg1.win 10).blk t).view.set := by
  have hi0 : (i 0).val < 200000 := (i 0).isLt
  have hi1 : (i 1).val < 128 := (i 1).isLt
  obtain ⟨t, ht⟩ : ∃ t : Fin cfg1.N, t.val = (i 0).val / 4000 :=
    ⟨⟨(i 0).val / 4000, lt_of_lt_of_eq (by omega : (i 0).val / 4000 < 50) N1.symm⟩, rfl⟩
  obtain ⟨-, -, -, -, -, -, -, -, e0, e1⟩ := idx_rows1 t
  refine ⟨t, flush1_10 t, ?_⟩
  rw [mem_blk1_10]
  intro a
  match a with
  | ⟨0, _⟩ =>
    show win1_10.index t (0 : Fin 2) * 4000 ≤ (i 0).val ∧ (i 0).val < win1_10.index t (0 : Fin 2) * 4000 + 4000
    rw [e0, ht]; omega
  | ⟨1, _⟩ =>
    show win1_10.index t (1 : Fin 2) * 128 ≤ (i 1).val ∧ (i 1).val < win1_10.index t (1 : Fin 2) * 128 + 128
    rw [e1]; omega

theorem covered1_9 (i : S200000x128.Idx) :
    ∃ t : Fin cfg1.N, (cfg1.win 9).flush t = true ∧ i ∈ ((cfg1.win 9).blk t).view.set := by
  have hi0 : (i 0).val < 200000 := (i 0).isLt
  have hi1 : (i 1).val < 128 := (i 1).isLt
  obtain ⟨t, ht⟩ : ∃ t : Fin cfg1.N, t.val = (i 0).val / 4000 :=
    ⟨⟨(i 0).val / 4000, lt_of_lt_of_eq (by omega : (i 0).val / 4000 < 50) N1.symm⟩, rfl⟩
  obtain ⟨-, -, -, -, -, -, e0, e1, -⟩ := idx_rows1 t
  refine ⟨t, flush1_9 t, ?_⟩
  rw [mem_blk1_9]
  intro a
  match a with
  | ⟨0, _⟩ =>
    show win1_9.index t (0 : Fin 2) * 4000 ≤ (i 0).val ∧ (i 0).val < win1_9.index t (0 : Fin 2) * 4000 + 4000
    rw [e0, ht]; omega
  | ⟨1, _⟩ =>
    show win1_9.index t (1 : Fin 2) * 128 ≤ (i 1).val ∧ (i 1).val < win1_9.index t (1 : Fin 2) * 128 + 128
    rw [e1]; omega

theorem arr1_10 (c : Dev nD) (i : S200000x128.Idx) :
    (dat1 (F := Ideal) V c).arrAt 10 cfg1.N i
      = rowLN (fun k q => V c main_v6 (ix2 k q)) (fun q => V c main_v7 (ix2 0 q)) (fun k q => V c main_v8 (ix2 k q))
          (fun q => V c main_v9 (ix2 0 q)) (fun q => V c main_v10 (ix2 0 q)) (fun q => V c main_v11 (ix2 0 q))
          (cat3 (fun k => V c main_v40 (ix2 (i 0) k)) (fun k => V c main_v47 (ix2 (i 0) k))
            (fun k => V c main_arg6 (ix2 (i 0) k))) (i 1) :=
  congrFun ((dat1 (F := Ideal) V c).arrAt_eq_of_cover 10 (G1_10 V c) (fun t _ => flushed1_10_eq V c t) covered1_10) i

theorem arr1_9 (c : Dev nD) (i : S200000x128.Idx) :
    (dat1 (F := Ideal) V c).arrAt 9 cfg1.N i
      = rowLN (fun k q => V c main_v6 (ix2 k q)) (fun q => V c main_v7 (ix2 0 q)) (fun k q => V c main_v8 (ix2 k q))
          (fun q => V c main_v9 (ix2 0 q)) (fun q => V c main_v10 (ix2 0 q)) (fun q => V c main_v11 (ix2 0 q))
          (cat3 (fun k => V c main_v40 (ix2 (i 0) k)) (fun k => V c main_v47 (ix2 (i 0) k))
            (fun k => V c main_arg6 (ix2 (i 0) k))) (i 1) + V c main_arg6 i :=
  congrFun ((dat1 (F := Ideal) V c).arrAt_eq_of_cover 9 (G1_9 V c) (fun t _ => flushed1_9_eq V c t) covered1_9) i

end Cert.KernelIdeal.Arr

end
-- ==== Proof.BodyNode.lean ====
import proofs.«408938_j13219909337176_3_alg».proof.Proof.BodyEdge0

noncomputable section

namespace Cert.KernelIdeal.Body

open Idealize.ShloMosaic Idealize.ShloMosaic.ValueIdx Cert.KernelIdeal Cert.KernelIdeal.Gen Cert.KernelIdeal.GenP Cert.Spec

variable [Cert.KernelIdeal.Facts]

private theorem npay2_apply (v0 v1 v3 : Vec Ideal S4000x128 .f32) (v8 v10 v12 : Vec Ideal S128x128 .bf16)
    (v19 : Vec Ideal S1x128 .f32) (v26 : Vec Ideal S128x128 .bf16) (v29 : Vec Ideal S1x128 .f32) (r : Fin 4000) (j : Fin 128) :
    k2_pay2 (F := Ideal) v0 v1 v3 v8 v10 v12 v19 v26 v29 (ix2 r j)
      = (∑ k : Fin 128, max ((((∑ kk : Fin 128, v0 (ix2 r kk) * v8 (ix2 kk k)) + ∑ kk : Fin 128, v1 (ix2 r kk) * v10 (ix2 kk k))
            + ∑ kk : Fin 128, v3 (ix2 r kk) * v12 (ix2 kk k)) + v19 (ix2 0 k)) zeroW * v26 (ix2 k j)) + v29 (ix2 0 j) := by
  unfold k2_pay2
  simp only [shapeCast_self]
  rw [addf_apply, broadcastTo_1b_ab_apply, mm_apply]
  refine congrArg (· + v29 (ix2 0 j)) (Finset.sum_congr rfl fun k _ => ?_)
  rw [truncf_apply, maximumf_apply, broadcast_apply, addf_apply, broadcastTo_1b_ab_apply, addf_apply, addf_apply,
    mm_apply, mm_apply, mm_apply]
  rfl

private theorem npay3_apply (v0 v1 v3 : Vec Ideal S4000x128 .f32) (v8 v10 v12 : Vec Ideal S128x128 .bf16)
    (v19 : Vec Ideal S1x128 .f32) (v26 : Vec Ideal S128x128 .bf16) (v29 : Vec Ideal S1x128 .f32) (r : Fin 4000) (u : Fin 1) :
    k2_pay3 (F := Ideal) v0 v1 v3 v8 v10 v12 v19 v26 v29 (ix2 r u)
      = ∑ q : Fin 128, k2_pay2 (F := Ideal) v0 v1 v3 v8 v10 v12 v19 v26 v29 (ix2 r q) := by
  unfold k2_pay3
  exact (shapeCast_a_a1_apply _ _ r u).trans (rowSum_apply _ _ _ _ _ r)

private theorem npay1_apply (v0 : Vec Ideal S4000x128 .f32) (y : FVec Ideal S4000x128 .f32) (s : FVec Ideal S4000x1 .f32)
    (g beta : Vec Ideal S1x128 .f32) (r : Fin 4000) (j : Fin 128) :
    k2_pay1 (F := Ideal) v0 y s g beta (ix2 r j)
      = (g (ix2 0 j) * (y (ix2 r j) - Ideal.div (s (ix2 r 0)) n128W))
          * Ideal.rsqrt (Ideal.div (∑ q : Fin 128, (y (ix2 r q) - Ideal.div (s (ix2 r 0)) n128W)
              * (y (ix2 r q) - Ideal.div (s (ix2 r 0)) n128W)) n128W + epsW)
          + beta (ix2 0 j) + v0 (ix2 r j) := by
  unfold k2_pay1
  simp only [shapeCast_self, addf_apply, mulf_apply, subf_apply, divf_apply, broadcast_apply, broadcastTo_1b_ab_apply,
    broadcastTo_a1_ab_apply, shapeCast_a_a1_apply, rsqrt_apply]
  refine congrArg (fun t => g (ix2 0 j) * (y (ix2 r j) - Ideal.div (s (ix2 r 0)) n128W)
    * Ideal.rsqrt (Ideal.div t n128W + epsW) + beta (ix2 0 j) + v0 (ix2 r j)) ?_
  refine (rowSum_apply _ _ _ _ _ r).trans (Finset.sum_congr rfl fun q _ => ?_)
  simp only [mulf_apply, subf_apply, divf_apply, broadcast_apply, broadcastTo_a1_ab_apply]
  rfl

private theorem npay2_row (x0 x1 x2 : Vec Ideal S4000x128 .f32) (x3 : Vec Ideal S384x128 .bf16)
    (x4 : Vec Ideal S1x128 .f32) (x5 : Vec Ideal S128x128 .bf16) (x6 : Vec Ideal S1x128 .f32) (r : Fin 4000) (q : Fin 128) :
    k2_pay2 (F := Ideal) x0 x1 x2 (View.ld x3 r2_1) (View.ld x3 r2_2) (View.ld x3 r2_3) x4 x5 x6 (ix2 r q)
      = lin2 (fun k q => x5 (ix2 k q)) (fun q => x6 (ix2 0 q))
          (hid (fun k q => x3 (ix2 k q)) (fun q => x4 (ix2 0 q))
            (cat3 (fun k => x0 (ix2 r k)) (fun k => x1 (ix2 r k)) (fun k => x2 (ix2 r k)))) q := by
  rw [npay2_apply]
  unfold lin2 hid lin1
  refine congrArg (· + x6 (ix2 0 q)) (Finset.sum_congr rfl fun k _ => ?_)
  have h3 : ((∑ kk : Fin 128, x0 (ix2 r kk) * View.ld x3 r2_1 (ix2 kk k)) + ∑ kk : Fin 128, x1 (ix2 r kk) * View.ld x3 r2_2 (ix2 kk k))
        + ∑ kk : Fin 128, x2 (ix2 r kk) * View.ld x3 r2_3 (ix2 kk k)
      = ∑ k' : Fin 384, cat3 (fun k => x0 (ix2 r k)) (fun k => x1 (ix2 r k)) (fun k => x2 (ix2 r k)) k' * x3 (ix2 k' k) := by
    refine Eq.trans ?_ (sum_cat3 _ _ _ (fun k' => x3 (ix2 k' k))).symm
    refine congrArg₂ (· + ·) (congrArg₂ (· + ·) ?_ ?_) ?_
    · exact Finset.sum_congr rfl fun kk _ => congrArg (x0 (ix2 r kk) * ·) (ld_w0 x3 kk k)
    · exact Finset.sum_congr rfl fun kk _ => congrArg (x1 (ix2 r kk) * ·) (ld_w1 x3 kk k)
    · exact Finset.sum_congr rfl fun kk _ => congrArg (x2 (ix2 r kk) * ·) (ld_w2 x3 kk k)
  rw [h3]

theorem out2_9_apply (x0 x1 x2 : Vec Ideal S4000x128 .f32) (x3 : Vec Ideal S384x128 .bf16)
    (x4 : Vec Ideal S1x128 .f32) (x5 : Vec Ideal S128x128 .bf16) (x6 x7 x8 : Vec Ideal S1x128 .f32) (r : Fin 4000) (j : Fin 128) :
    out2_9 (F := Ideal) x0 x1 x2 x3 x4 x5 x6 x7 x8 (ix2 r j)
      = rowLN (fun k q => x3 (ix2 k q)) (fun q => x4 (ix2 0 q)) (fun k q => x5 (ix2 k q)) (fun q => x6 (ix2 0 q))
          (fun q => x7 (ix2 0 q)) (fun q => x8 (ix2 0 q))
          (cat3 (fun k => x0 (ix2 r k)) (fun k => x1 (ix2 r k)) (fun k => x2 (ix2 r k))) j + x0 (ix2 r j) := by
  unfold out2_9
  rw [View.canon_unit_zero hz]
  simp only [View.ld_unit_zero (S := S4000x128) hz, View.ld_unit_zero (S := S1x128) hz, View.ld_unit_zero (S := S128x128) hz]
  rw [npay1_apply, npay3_apply]
  simp only [npay2_row]
  rfl

end Cert.KernelIdeal.Body

end
-- ==== Proof.Arr2.lean ====
import proofs.«408938_j13219909337176_3_alg».proof.Proof.PKernelIdealFrame
import proofs.«408938_j13219909337176_3_alg».proof.Proof.Gen.KernelIdeal.Points
import proofs.«408938_j13219909337176_3_alg».proof.Proof.BodyNode
import proofs.«408938_j13219909337176_3_alg».proof.Proof.Spec
import Idealize.ShloMosaic.Lib.Pipeline.Value
import Idealize.ShloMosaic.Lib.ValueIdx

noncomputable section

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.Body Cert.Spec

variable (V : (c : Dev nD) → (b : Ref sig .tc) → Buf (Elt Ideal) ((c : Thread nD τ).loc b))

def row2 (c : Dev nD) (i0 : Fin 100000) (j : Fin 128) : EReal :=
  rowLN (fun k q => V c main_v12 (ix2 k q)) (fun q => V c main_v13 (ix2 0 q)) (fun k q => V c main_v14 (ix2 k q))
    (fun q => V c main_v15 (ix2 0 q)) (fun q => V c main_v16 (ix2 0 q)) (fun q => V c main_v17 (ix2 0 q))
    (cat3 (fun k => V c main_arg0 (ix2 i0 k)) (fun k => V c main_v51 (ix2 i0 k)) (fun k => V c main_v54 (ix2 i0 k))) j

def G2_9 (c : Dev nD) : S100000x128.Idx → EReal := fun i => row2 V c (i 0) (i 1) + V c main_arg0 i

theorem N2 : cfg2.N = 25 := N_2

theorem idx_rows2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_9.index t (0 : Fin 2) = t.val ∧ win2_9.index t (1 : Fin 2) = 0 :=
  (by decide +kernel : ∀ t : Fin grid2.N, _)

theorem idx_params2 : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

theorem blk2_0 (c : Dev nD) (t : Fin cfg2.N) (r : Fin 4000) (k : Fin 128) (i0 : Fin 100000)
    (h : i0.val = 4000 * t.val + r.val) :
    (iblk2 V c 0 t : Vec Ideal S4000x128 .f32) (ix2 r k) = (V c main_arg0 : Vec Ideal S100000x128 .f32) (ix2 i0 k) := by
  obtain ⟨e0, e1, -⟩ := idx_rows2 t
  unfold iblk2
  rw [View.read_apply]
  show V c main_arg0 _ = V c main_arg0 _
  congr 1
  funext a
  apply Fin.ext
  match a with
  | ⟨0, _⟩ => show win2_0.index t (0 : Fin 2) * 4000 + 1 * r.val = i0.val; rw [e0, h]; omega
  | ⟨1, _⟩ => show win2_0.index t (1 : Fin 2) * 128 + 1 * k.val = k.val; rw [e1]; omega

theorem blk2_1 (c : Dev nD) (t : Fin cfg2.N) (r : Fin 4000) (k : Fin 128) (i0 : Fin 100000)
    (h : i0.val = 4000 * t.val + r.val) :
    (iblk2 V c 1 t : Vec Ideal S4000x128 .f32) (ix2 r k) = (V c main_v51 : Vec Ideal S100000x128 .f32) (ix2 i0 k) := by
  obtain ⟨-, -, e0, e1, -⟩ := idx_rows2 t
  unfold iblk2
  rw [View.read_apply]
  show V c main_v51 _ = V c main_v51 _
  congr 1
  funext a
  apply Fin.ext
  match a with
  | ⟨0, _⟩ => show win2_1.index t (0 : Fin 2) * 4000 + 1 * r.val = i0.val; rw [e0, h]; omega
  | ⟨1, _⟩ => show win2_1.index t (1 : Fin 2) * 128 + 1 * k.val = k.val; rw [e1]; omega

theorem blk2_2 (c : Dev nD) (t : Fin cfg2.N) (r : Fin 4000) (k : Fin 128) (i0 : Fin 100000)
    (h : i0.val = 4000 * t.val + r.val) :
    (iblk2 V c 2 t : Vec Ideal S4000x128 .f32) (ix2 r k) = (V c main_v54 : Vec Ideal S100000x128 .f32) (ix2 i0 k) := by
  obtain ⟨-, -, -, -, e0, e1, -⟩ := idx_rows2 t
  unfold iblk2
  rw [View.read_apply]
  show V c main_v54 _ = V c main_v54 _
  congr 1
  funext a
  apply Fin.ext
  match a with
  | ⟨0, _⟩ => show win2_2.index t (0 : Fin 2) * 4000 + 1 * r.val = i0.val; rw [e0, h]; omega
  | ⟨1, _⟩ => show win2_2.index t (1 : Fin 2) * 128 + 1 * k.val = k.val; rw [e1]; omega

theorem blk2_3 (c : Dev nD) (t : Fin cfg2.N) (k : Fin 384) (q : Fin 128) :
    (iblk2 V c 3 t : Vec Ideal S384x128 .bf16) (ix2 k q) = (V c main_v12 : Vec Ideal S384x128 .bf16) (ix2 k q) := by
  obtain ⟨e0, e1, -⟩ := idx_params2 t
  unfold iblk2
  rw [View.read_apply]
  show V c main_v12 _ = V c main_v12 _
  congr 1
  funext a
  apply Fin.ext
  match a with
  | ⟨0, _⟩ => show win2_3.index t (0 : Fin 2) * 384 + 1 * k.val = k.val; rw [e0]; omega
  | ⟨1, _⟩ => show win2_3.index t (1 : Fin 2) * 128 + 1 * q.val = q.val; rw [e1]; omega

theorem blk2_4 (c : Dev nD) (t : Fin cfg2.N) (k : Fin 1) (q : Fin 128) :
    (iblk2 V c 4 t : Vec Ideal S1x128 .f32) (ix2 k q) = (V c main_v13 : Vec Ideal S1x128 .f32) (ix2 k q) := by
  obtain ⟨-, -, e0, e1, -⟩ := idx_params2 t
  unfold iblk2
  rw [View.read_apply]
  show V c main_v13 _ = V c main_v13 _
  congr 1
  funext a
  apply Fin.ext
  match a with
  | ⟨0, _⟩ => show win2_4.index t (0 : Fin 2) * 1 + 1 * k.val = k.val; rw [e0]; omega
  | ⟨1, _⟩ => show win2_4.index t (1 : Fin 2) * 128 + 1 * q.val = q.val; rw [e1]; omega

theorem blk2_5 (c : Dev nD) (t : Fin cfg2.N) (k : Fin 128) (q : Fin 128) :
    (iblk2 V c 5 t : Vec Ideal S128x128 .bf16) (ix2 k q) = (V c main_v14 : Vec Ideal S128x128 .bf16) (ix2 k q) := by
  obtain ⟨-, -, -, -, e0, e1, -⟩ := idx_params2 t
  unfold iblk2
  rw [View.read_apply]
  show V c main_v14 _ = V c main_v14 _
  congr 1
  funext a
  apply Fin.ext
  match a with
  | ⟨0, _⟩ => show win2_5.index t (0 : Fin 2) * 128 + 1 * k.val = k.val; rw [e0]; omega
  | ⟨1, _⟩ => show win2_5.index t (1 : Fin 2) * 128 + 1 * q.val = q.val; rw [e1]; omega

theorem blk2_6 (c : Dev nD) (t : Fin cfg2.N) (k : Fin 1) (q : Fin 128) :
    (iblk2 V c 6 t : Vec Ideal S1x128 .f32) (ix2 k q) = (V c main_v15 : Vec Ideal S1x128 .f32) (ix2 k q) := by
  obtain ⟨-, -, -, -, -, -, e0, e1, -⟩ := idx_params2 t
  unfold iblk2
  rw [View.read_apply]
  show V c main_v15 _ = V c main_v15 _
  congr 1
  funext a
  apply Fin.ext
  match a with
  | ⟨0, _⟩ => show win2_6.index t (0 : Fin 2) * 1 + 1 * k.val = k.val; rw [e0]; omega
  | ⟨1, _⟩ => show win2_6.index t (1 : Fin 2) * 128 + 1 * q.val = q.val; rw [e1]; omega

theorem blk2_7 (c : Dev nD) (t : Fin cfg2.N) (k : Fin 1) (q : Fin 128) :
    (iblk2 V c 7 t : Vec Ideal S1x128 .f32) (ix2 k q) = (V c main_v16 : Vec Ideal S1x128 .f32) (ix2 k q) := by
  obtain ⟨-, -, -, -, -, -, -, -, e0, e1, -⟩ := idx_params2 t
  unfold iblk2
  rw [View.read_apply]
  show V c main_v16 _ = V c main_v16 _
  congr 1
  funext a
  apply Fin.ext
  match a with
  | ⟨0, _⟩ => show win2_7.index t (0 : Fin 2) * 1 + 1 * k.val = k.val; rw [e0]; omega
  | ⟨1, _⟩ => show win2_7.index t (1 : Fin 2) * 128 + 1 * q.val = q.val; rw [e1]; omega

theorem blk2_8 (c : Dev nD) (t : Fin cfg2.N) (k : Fin 1) (q : Fin 128) :
    (iblk2 V c 8 t : Vec Ideal S1x128 .f32) (ix2 k q) = (V c main_v17 : Vec Ideal S1x128 .f32) (ix2 k q) := by
  obtain ⟨-, -, -, -, -, -, -, -, -, -, e0, e1⟩ := idx_params2 t
  unfold iblk2
  rw [View.read_apply]
  show V c main_v17 _ = V c main_v17 _
  congr 1
  funext a
  apply Fin.ext
  match a with
  | ⟨0, _⟩ => show win2_8.index t (0 : Fin 2) * 1 + 1 * k.val = k.val; rw [e0]; omega
  | ⟨1, _⟩ => show win2_8.index t (1 : Fin 2) * 128 + 1 * q.val = q.val; rw [e1]; omega

theorem row_blocks2 (c : Dev nD) (t : Fin cfg2.N) (r : Fin 4000) (j : Fin 128) (i0 : Fin 100000)
    (h : i0.val = 4000 * t.val + r.val) :
    rowLN (fun k q => (iblk2 V c 3 t : Vec Ideal S384x128 .bf16) (ix2 k q))
        (fun q => (iblk2 V c 4 t : Vec Ideal S1x128 .f32) (ix2 0 q))
        (fun k q => (iblk2 V c 5 t : Vec Ideal S128x128 .bf16) (ix2 k q))
        (fun q => (iblk2 V c 6 t : Vec Ideal S1x128 .f32) (ix2 0 q))
        (fun q => (iblk2 V c 7 t : Vec Ideal S1x128 .f32) (ix2 0 q))
        (fun q => (iblk2 V c 8 t : Vec Ideal S1x128 .f32) (ix2 0 q))
        (cat3 (fun k => (iblk2 V c 0 t : Vec Ideal S4000x128 .f32) (ix2 r k))
          (fun k => (iblk2 V c 1 t : Vec Ideal S4000x128 .f32) (ix2 r k))
          (fun k => (iblk2 V c 2 t : Vec Ideal S4000x128 .f32) (ix2 r k))) j
      = row2 V c i0 j := by
  unfold row2
  exact rowLN_congr j (fun k q => blk2_3 V c t k q) (fun q => blk2_4 V c t 0 q) (fun k q => blk2_5 V c t k q)
    (fun q => blk2_6 V c t 0 q) (fun q => blk2_7 V c t 0 q) (fun q => blk2_8 V c t 0 q)
    (cat3_congr (fun k => blk2_0 V c t r k i0 h) (fun k => blk2_1 V c t r k i0 h) (fun k => blk2_2 V c t r k i0 h))

theorem point2_9 (c : Dev nD) (t : Fin cfg2.N) (r : Fin 4000) (j : Fin 128) (i0 : Fin 100000)
    (h : i0.val = 4000 * t.val + r.val) :
    out2_9 (F := Ideal) (iblk2 V c 0 t) (iblk2 V c 1 t) (iblk2 V c 2 t) (iblk2 V c 3 t) (iblk2 V c 4 t)
        (iblk2 V c 5 t) (iblk2 V c 6 t) (iblk2 V c 7 t) (iblk2 V c 8 t) (ix2 r j)
      = row2 V c i0 j + (V c main_arg0 : Vec Ideal S100000x128 .f32) (ix2 i0 j) :=
  (out2_9_apply (iblk2 V c 0 t) (iblk2 V c 1 t) (iblk2 V c 2 t) (iblk2 V c 3 t) (iblk2 V c 4 t)
    (iblk2 V c 5 t) (iblk2 V c 6 t) (iblk2 V c 7 t) (iblk2 V c 8 t) r j).trans
    (congr (congrArg HAdd.hAdd (row_blocks2 V c t r j i0 h)) (blk2_0 V c t r j i0 h))

theorem flushed2_9_eq (c : Dev nD) (t : Fin cfg2.N) :
    (dat2 (F := Ideal) V c).flushed 9 t = ((cfg2.win 9).blk t).view.read (Elt Ideal) (G2_9 V c) := by
  show (cfg2.win 9).cut (grid2.coords t) ((dat2 (F := Ideal) V c).after 9 t) = _
  rw [after2_9]
  obtain ⟨-, -, -, -, -, -, e0, e1⟩ := idx_rows2 t
  have hN : t.val < 25 := lt_of_lt_of_eq t.isLt N2
  funext y
  have hy0 : (y 0).val < 4000 := (y 0).isLt
  have hy1 : (y 1).val < 128 := (y 1).isLt
  have hx : (cfg2.win 9).xinj (grid2.coords t) y = ix2 (⟨(y 0).val, hy0⟩ : Fin 4000) (⟨(y 1).val, hy1⟩ : Fin 128) := by
    funext a
    match a with
    | ⟨0, _⟩ => rfl
    | ⟨1, _⟩ => rfl
  have he : ((cfg2.win 9).blk t).view.emb y
      = ix2 (⟨4000 * t.val + (y 0).val, by omega⟩ : Fin 100000) (⟨(y 1).val, hy1⟩ : Fin 128) := by
    funext a
    apply Fin.ext
    match a with
    | ⟨0, _⟩ => show win2_9.index t (0 : Fin 2) * 4000 + 1 * (y 0).val = 4000 * t.val + (y 0).val; rw [e0]; omega
    | ⟨1, _⟩ => show win2_9.index t (1 : Fin 2) * 128 + 1 * (y 1).val = (y 1).val; rw [e1]; omega
  show out2_9 (F := Ideal) (iblk2 V c 0 t) (iblk2 V c 1 t) (iblk2 V c 2 t) (iblk2 V c 3 t) (iblk2 V c 4 t)
      (iblk2 V c 5 t) (iblk2 V c 6 t) (iblk2 V c 7 t) (iblk2 V c 8 t) ((cfg2.win 9).xinj (grid2.coords t) y)
    = G2_9 V c (((cfg2.win 9).blk t).view.emb y)
  rw [hx, he]
  exact point2_9 V c t _ _ _ rfl

theorem mem_blk2_9 (t : Fin cfg2.N) (i : S100000x128.Idx) :
    i ∈ ((cfg2.win 9).blk t).view.set ↔ ∀ a : Fin 2, win2_9.index t a * S4000x128.size a ≤ (i a).val
      ∧ (i a).val < win2_9.index t a * S4000x128.size a + S4000x128.size a := by
  show i ∈ ((View.whole main_v55).slice (win2_9.rect t)).set ↔ _
  rw [View.set_slice_whole, Rect.mem_set_unit]
  exact Iff.rfl

theorem covered2_9 (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  obtain ⟨t, ht⟩ : ∃ t : Fin cfg2.N, t.val = (i 0).val / 4000 :=
    ⟨⟨(i 0).val / 4000, lt_of_lt_of_eq (by omega : (i 0).val / 4000 < 25) N2.symm⟩, rfl⟩
  obtain ⟨-, -, -, -, -, -, e0, e1⟩ := idx_rows2 t
  refine ⟨t, flush2_9 t, ?_⟩
  rw [mem_blk2_9]
  intro a
  match a with
  | ⟨0, _⟩ =>
    show win2_9.index t (0 : Fin 2) * 4000 ≤ (i 0).val ∧ (i 0).val < win2_9.index t (0 : Fin 2) * 4000 + 4000
    rw [e0, ht]; omega
  | ⟨1, _⟩ =>
    show win2_9.index t (1 : Fin 2) * 128 ≤ (i 1).val ∧ (i 1).val < win2_9.index t (1 : Fin 2) * 128 + 128
    rw [e1]; omega

theorem arr2_9 (c : Dev nD) (i : S100000x128.Idx) :
    (dat2 (F := Ideal) V c).arrAt 9 cfg2.N i
      = rowLN (fun k q => V c main_v12 (ix2 k q)) (fun q => V c main_v13 (ix2 0 q)) (fun k q => V c main_v14 (ix2 k q))
          (fun q => V c main_v15 (ix2 0 q)) (fun q => V c main_v16 (ix2 0 q)) (fun q => V c main_v17 (ix2 0 q))
          (cat3 (fun k => V c main_arg0 (ix2 (i 0) k)) (fun k => V c main_v51 (ix2 (i 0) k))
            (fun k => V c main_v54 (ix2 (i 0) k))) (i 1) + V c main_arg0 i :=
  congrFun ((dat2 (F := Ideal) V c).arrAt_eq_of_cover 9 (G2_9 V c) (fun t _ => flushed2_9_eq V c t) covered2_9) i

end Cert.KernelIdeal.Arr

end
-- ==== Proof.KernelValue.lean ====
import proofs.«408938_j13219909337176_3_alg».proof.Proof.RunAll
import proofs.«408938_j13219909337176_3_alg».proof.Proof.ChainIn
import proofs.«408938_j13219909337176_3_alg».proof.Proof.ChainOut
import proofs.«408938_j13219909337176_3_alg».proof.Proof.Arr0
import proofs.«408938_j13219909337176_3_alg».proof.Proof.Arr1
import proofs.«408938_j13219909337176_3_alg».proof.Proof.Arr2
import proofs.«408938_j13219909337176_3_alg».proof.Proof.Target

set_option maxRecDepth 16384

noncomputable section

namespace Cert.KernelIdeal.KernelValue

open Cert.KernelIdeal Cert.KernelIdeal.Gen Cert.KernelIdeal.GenP Cert.KernelIdeal.Chain Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

theorem pre_mesh (c : Dev nD) :
    (dat0 (F := Ideal) (V1 m ρ) c).arrAt 10 cfg0.N = Cert.Target.meshPre (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  refine (Arr.arr0_10 (V1 m ρ) c i).trans ?_
  dsimp only [Cert.Target.meshPre, Cert.Target.rowOf]
  refine rowLN_congr (i 1) (fun k q => ?_) (fun q => ?_) (fun k q => ?_) (fun q => ?_) (fun q => ?_) (fun q => ?_)
    (fun k => cat3_congr (fun k => ?_) (fun k => ?_) (fun k => ?_) k)
  · exact congrFun (V1_v0 m ρ c) (ix2 k q)
  · exact V1_v1 m ρ c q
  · exact congrFun (V1_v2 m ρ c) (ix2 k q)
  · exact V1_v3 m ρ c q
  · exact V1_v4 m ρ c q
  · exact V1_v5 m ρ c q
  · exact congrFun (V1_v25 m ρ c) (ix2 (i 0) k)
  · exact congrFun (V1_v32 m ρ c) (ix2 (i 0) k)
  · exact congrFun (V1_arg3 m ρ c) (ix2 (i 0) k)

theorem out_mesh (c : Dev nD) :
    (dat0 (F := Ideal) (V1 m ρ) c).arrAt 9 cfg0.N = Cert.Target.meshOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  refine (Arr.arr0_9 (V1 m ρ) c i).trans ?_
  show _ + _ = (Cert.Target.meshPre (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) i + _
  exact congrArg₂ (· + ·) ((Arr.arr0_10 (V1 m ρ) c i).symm.trans (congrFun (pre_mesh m ρ c) i))
    (congrFun (V1_arg3 m ρ c) i)

theorem pre_world (c : Dev nD) :
    (dat1 (F := Ideal) (V3 m ρ) c).arrAt 10 cfg1.N = Cert.Target.worldPre (m ((c : Thread nD τ).loc main_arg0)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  funext i
  refine (Arr.arr1_10 (V3 m ρ) c i).trans ?_
  dsimp only [Cert.Target.worldPre, Cert.Target.rowOf]
  refine rowLN_congr (i 1) (fun k q => ?_) (fun q => ?_) (fun k q => ?_) (fun q => ?_) (fun q => ?_) (fun q => ?_)
    (fun k => cat3_congr (fun k => ?_) (fun k => ?_) (fun k => ?_) k)
  · exact congrFun (V3_v6 m ρ c) (ix2 k q)
  · exact V3_v7 m ρ c q
  · exact congrFun (V3_v8 m ρ c) (ix2 k q)
  · exact V3_v9 m ρ c q
  · exact V3_v10 m ρ c q
  · exact V3_v11 m ρ c q
  · exact congrFun (V3_v40 m ρ c) (ix2 (i 0) k)
  · exact congrFun (V3_v47 m ρ c) (ix2 (i 0) k)
  · exact congrFun (V3_arg6 m ρ c) (ix2 (i 0) k)

theorem out_world (c : Dev nD) :
    (dat1 (F := Ideal) (V3 m ρ) c).arrAt 9 cfg1.N = Cert.Target.worldOut (m ((c : Thread nD τ).loc main_arg0)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  funext i
  refine (Arr.arr1_9 (V3 m ρ) c i).trans ?_
  show _ + _ = (Cert.Target.worldPre (m ((c : Thread nD τ).loc main_arg0)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) i + _
  exact congrArg₂ (· + ·) ((Arr.arr1_10 (V3 m ρ) c i).symm.trans (congrFun (pre_world m ρ c) i))
    (congrFun (V3_arg6 m ρ c) i)

theorem agg_mesh (c : Dev nD) :
    V5 m ρ c main_v51 = Cert.Target.aggM (m ((c : Thread nD τ).loc main_arg2)) (Cert.Target.meshPre (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :=
  (V5_v51 m ρ c).trans (congrArg (Cert.Target.aggM (m ((c : Thread nD τ).loc main_arg2))) (pre_mesh m ρ c))

theorem agg_world (c : Dev nD) :
    V5 m ρ c main_v54 = Cert.Target.aggW (m ((c : Thread nD τ).loc main_arg5)) (Cert.Target.worldPre (m ((c : Thread nD τ).loc main_arg0)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) :=
  (V5_v54 m ρ c).trans (congrArg (Cert.Target.aggW (m ((c : Thread nD τ).loc main_arg5))) (pre_world m ρ c))

theorem out_nodes (c : Dev nD) :
    (dat2 (F := Ideal) (V5 m ρ) c).arrAt 9 cfg2.N
      = Cert.Target.nodeOut (m ((c : Thread nD τ).loc main_arg0))
        (Cert.Target.aggM (m ((c : Thread nD τ).loc main_arg2)) (Cert.Target.meshPre (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))))
        (Cert.Target.aggW (m ((c : Thread nD τ).loc main_arg5)) (Cert.Target.worldPre (m ((c : Thread nD τ).loc main_arg0)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))))
        (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  funext i
  refine (Arr.arr2_9 (V5 m ρ) c i).trans ?_
  dsimp only [Cert.Target.nodeOut, Cert.Target.rowOf]
  refine congrArg₂ (· + ·) ?_ (congrFun (V5_arg0 m ρ c) i)
  refine rowLN_congr (i 1) (fun k q => ?_) (fun q => ?_) (fun k q => ?_) (fun q => ?_) (fun q => ?_) (fun q => ?_)
    (fun k => cat3_congr (fun k => ?_) (fun k => ?_) (fun k => ?_) k)
  · exact congrFun (V5_v12 m ρ c) (ix2 k q)
  · exact V5_v13 m ρ c q
  · exact congrFun (V5_v14 m ρ c) (ix2 k q)
  · exact V5_v15 m ρ c q
  · exact V5_v16 m ρ c q
  · exact V5_v17 m ρ c q
  · exact congrFun (V5_arg0 m ρ c) (ix2 (i 0) k)
  · exact congrFun (agg_mesh m ρ c) (ix2 (i 0) k)
  · exact congrFun (agg_world m ρ c) (ix2 (i 0) k)

theorem run : θ_run defs (onTc (τ := τ) (main (F := Ideal))) ⟨m, fun _ => 0, ρ⟩ (fun r => ∀ c : Dev nD,
      r.2.mem ((c.tc : Thread nD τ).loc main_v55) = Cert.Target.nodeOut (m ((c.tc : Thread nD τ).loc main_arg0))
        (Cert.Target.aggM (m ((c.tc : Thread nD τ).loc main_arg2)) (Cert.Target.meshPre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))))
        (Cert.Target.aggW (m ((c.tc : Thread nD τ).loc main_arg5)) (Cert.Target.worldPre (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))))
        (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_v33_0) = Cert.Target.meshOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v48_0) = Cert.Target.worldOut (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨((h c main_v55 (by decide)).trans (W6_v55 m ρ c)).trans (out_nodes m ρ c),
     ((h c main_v33_0 (by decide)).trans (W6_v33_0 m ρ c)).trans (out_mesh m ρ c),
     ((h c main_v48_0 (by decide)).trans (W6_v48_0 m ρ c)).trans (out_world m ρ c),
     (h c main_arg0 (by decide)).trans (W6_main_arg0 m ρ c),
     (h c main_arg1 (by decide)).trans (W6_main_arg1 m ρ c),
     (h c main_arg2 (by decide)).trans (W6_main_arg2 m ρ c),
     (h c main_arg3 (by decide)).trans (W6_main_arg3 m ρ c),
     (h c main_arg4 (by decide)).trans (W6_main_arg4 m ρ c),
     (h c main_arg5 (by decide)).trans (W6_main_arg5 m ρ c),
     (h c main_arg6 (by decide)).trans (W6_main_arg6 m ρ c),
     (h c main_arg7 (by decide)).trans (W6_main_arg7 m ρ c),
     (h c main_arg8 (by decide)).trans (W6_main_arg8 m ρ c),
     (h c main_arg9 (by decide)).trans (W6_main_arg9 m ρ c),
     (h c main_arg10 (by decide)).trans (W6_main_arg10 m ρ c),
     (h c main_arg11 (by decide)).trans (W6_main_arg11 m ρ c),
     (h c main_arg12 (by decide)).trans (W6_main_arg12 m ρ c),
     (h c main_arg13 (by decide)).trans (W6_main_arg13 m ρ c),
     (h c main_arg14 (by decide)).trans (W6_main_arg14 m ρ c),
     (h c main_arg15 (by decide)).trans (W6_main_arg15 m ρ c),
     (h c main_arg16 (by decide)).trans (W6_main_arg16 m ρ c),
     (h c main_arg17 (by decide)).trans (W6_main_arg17 m ρ c),
     (h c main_arg18 (by decide)).trans (W6_main_arg18 m ρ c),
     (h c main_arg19 (by decide)).trans (W6_main_arg19 m ρ c),
     (h c main_arg20 (by decide)).trans (W6_main_arg20 m ρ c),
     (h c main_arg21 (by decide)).trans (W6_main_arg21 m ρ c),
     (h c main_arg22 (by decide)).trans (W6_main_arg22 m ρ c),
     (h c main_arg23 (by decide)).trans (W6_main_arg23 m ρ c),
     (h c main_arg24 (by decide)).trans (W6_main_arg24 m ρ c)⟩) (run_all m ρ)

end Cert.KernelIdeal.KernelValue

end
-- ==== Proof.RefValue.lean ====
import proofs.«408938_j13219909337176_3_alg».proof.Proof.RefRun
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.HandRun Idealize.ShloMosaic Idealize.ShloMosaic.TcCoe Idealize.SL.Sem Idealize.ShloMosaic.StableHlo
open Idealize.ShloMosaic.ValueIdx Cert.RefBlock

variable [Cert.KernelIdeal.Facts₀] (m : (ℓ : Loc nD τ sig) → Buf (Elt Ideal) ℓ) (c : Dev nD)

/-- Each whole-array block, read at (p, q), is the target's row function of the joined row p. -/
theorem mesh_eq : HandRun.mesh (launchContents m c)
    = Cert.Target.meshPre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  funext i
  obtain ⟨p, q, rfl⟩ : ∃ (p : Fin 400000) (q : Fin 128), i = ix2 p q := ⟨i 0, i 1, eq_ix2 i⟩
  unfold HandRun.mesh
  rw [blockArr_apply (n := 400000) _ _ _ _ _ _ _ _ _ _ _ rfl rfl rfl rfl rfl rfl rfl rfl rfl rfl rfl rfl (by decide)]
  rfl

theorem world_eq : HandRun.world (launchContents m c)
    = Cert.Target.worldPre (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  funext i
  obtain ⟨p, q, rfl⟩ : ∃ (p : Fin 200000) (q : Fin 128), i = ix2 p q := ⟨i 0, i 1, eq_ix2 i⟩
  unfold HandRun.world
  rw [blockArr_apply (n := 200000) _ _ _ _ _ _ _ _ _ _ _ rfl rfl rfl rfl rfl rfl rfl rfl rfl rfl rfl rfl (by decide)]
  rfl

theorem out1_eq : meshRes (launchContents m c)
    = Cert.Target.meshOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold meshRes
  rw [mesh_eq]
  rfl

theorem out2_eq : worldRes (launchContents m c)
    = Cert.Target.worldOut (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  unfold worldRes
  rw [world_eq]
  rfl

theorem out0_eq : nodeRes (launchContents m c)
    = Cert.Target.nodeOut (m ((c.tc : Thread nD τ).loc main_arg0))
        (Cert.Target.aggM (m ((c.tc : Thread nD τ).loc main_arg2)) (Cert.Target.meshPre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))))
        (Cert.Target.aggW (m ((c.tc : Thread nD τ).loc main_arg5)) (Cert.Target.worldPre (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))))
        (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  rw [← mesh_eq, ← world_eq]
  funext i
  obtain ⟨p, q, rfl⟩ : ∃ (p : Fin 100000) (q : Fin 128), i = ix2 p q := ⟨i 0, i 1, eq_ix2 i⟩
  unfold nodeRes node
  rw [addf_apply, blockArr_apply (n := 100000) _ _ _ _ _ _ _ _ _ _ _ rfl rfl rfl rfl rfl rfl rfl rfl rfl rfl rfl rfl (by decide)]
  rfl

end Cert.ReferenceIdeal.RefValue

end
-- ==== Proof.Final.lean ====
import proofs.«408938_j13219909337176_3_alg».proof.Defs
import proofs.«408938_j13219909337176_3_alg».proof.Proof.Gen.Kernel
import proofs.«408938_j13219909337176_3_alg».proof.Proof.Gen.KernelIdeal
import proofs.«408938_j13219909337176_3_alg».proof.Proof.Gen.ReferenceIdeal
import proofs.«408938_j13219909337176_3_alg».proof.Proof.Gen.Pre_finite_inputs
import proofs.«408938_j13219909337176_3_alg».proof.Proof.PKernelFrame
import proofs.«408938_j13219909337176_3_alg».proof.Proof.PKernelIdealFrame
import proofs.«408938_j13219909337176_3_alg».proof.Proof.RefRun
import proofs.«408938_j13219909337176_3_alg».proof.Proof.KernelValue
import proofs.«408938_j13219909337176_3_alg».proof.Proof.RefValue

noncomputable section

namespace Cert.Proof.Claims

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2.2) (Cert.ReferenceIdeal.HandRun.run m ρ)

theorem preserves : Cert.preserves_Kernel_KernelIdeal := trivial

theorem algebraic : Cert.algebraic_KernelIdeal_ReferenceIdeal := by
  intro m ρ m' ρ' _ hagree
  refine ⟨_, _, _, Cert.KernelIdeal.KernelValue.run m ρ, ?_⟩
  refine (θ_run Cert.ReferenceIdeal.defs _ _).mono (fun _ h c => ?_) (Cert.ReferenceIdeal.HandRun.run m' ρ')
  obtain ⟨h0, h1, h2, h3, h4, h5, h6, h7, h8, h9, h10, h11, h12, h13, h14, h15, h16, h17, h18, h19, h20, h21, h22, h23, h24⟩ := hagree c
  obtain ⟨r0, r1, r2, rest⟩ := h c
  refine ⟨r0.trans ?_, r1.trans ?_, r2.trans ?_, rest⟩
  · rw [Cert.ReferenceIdeal.RefValue.out0_eq]
    simp only [h0, h1, h2, h3, h4, h5, h6, h7, h8, h9, h10, h11, h12, h13, h14, h15, h16, h17, h18, h19, h20, h21, h22, h23, h24]
  · rw [Cert.ReferenceIdeal.RefValue.out1_eq]
    simp only [h0, h1, h2, h3, h7, h8, h9, h10, h11, h12]
  · rw [Cert.ReferenceIdeal.RefValue.out2_eq]
    simp only [h0, h4, h5, h6, h13, h14, h15, h16, h17, h18]

end Cert.Proof.Claims

end
-- ==== Proof.lean ====
import proofs.«408938_j13219909337176_3_alg».proof.Defs
import proofs.«408938_j13219909337176_3_alg».proof.Proof.Final

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
